-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x8192 : Shape := ⟨2, ![512, 8192]⟩
abbrev S16x512 : Shape := ⟨2, ![16, 512]⟩
abbrev S512x128 : Shape := ⟨2, ![512, 128]⟩
abbrev S512x64 : Shape := ⟨2, ![512, 64]⟩
abbrev S512x1 : Shape := ⟨2, ![512, 1]⟩
abbrev S64x1024 : Shape := ⟨2, ![64, 1024]⟩
abbrev S512x1024 : Shape := ⟨2, ![512, 1024]⟩
abbrev S512 : Shape := ⟨1, ![512]⟩
abbrev S16x1024 : Shape := ⟨2, ![16, 1024]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | .local _ .vmem, ⟨8, _⟩ => ⟨S512x8192, .bf16⟩
  | .local _ .vmem, ⟨9, _⟩ => ⟨S512x8192, .bf16⟩
  | .local _ .vmem, ⟨10, _⟩ => ⟨S16x512, .bf16⟩
  | .local _ .vmem, ⟨11, _⟩ => ⟨S16x512, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v0 : BitVec 32 := Scalar.remsi arg0 c2_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0 : Index := 0#32
  ![v14.toNat, 0]
def k0_off2 (i : grid0.Coords) : Fin 2 → Nat :=
  let c0_124 : Index := 0#32
  let arg0 : BitVec 32 := BitVec.ofNat 32 (i 0).val
  let c512_i32_123 : BitVec 32 := 512#32
  let v161 : BitVec 32 := Scalar.muli arg0 c512_i32_123
  let v162 : Index := Scalar.indexCast v161
  ![0, v162.toNat]
def k0_cond3 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v7 : BitVec 1 := Scalar.cmpi .eq v0 c1_i32
  let v8 : BitVec 32 := Scalar.extui v7
  let c0_i32_3 : BitVec 32 := 0#32
  let v9 : BitVec 1 := Scalar.cmpi .ne v8 c0_i32_3
  v9

def k0_off3 (i : grid0.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0 : Index := 0#32
  ![v14.toNat, 0]
def k0_off4 (i : grid0.Coords) : Fin 2 → Nat :=
  let c0_124 : Index := 0#32
  let arg0 : BitVec 32 := BitVec.ofNat 32 (i 0).val
  let c512_i32_123 : BitVec 32 := 512#32
  let v161 : BitVec 32 := Scalar.muli arg0 c512_i32_123
  let v162 : Index := Scalar.indexCast v161
  ![0, v162.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond4 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  packedbf16_S16x512_S16x512_0_0 : (Rect.unit (s := S16x512) ![0, 0] S16x512.size inb_S16x512_S16x512_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  packedbf16_S512x8192_S512x8192_0_0 : (Rect.unit (s := S512x8192) ![0, 0] S512x8192.size inb_S512x8192_S512x8192_0_0).PackedRows (EltTy.packing .bf16)
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x8192_S64x1024_0_0 : ∀ a, (![0, 0] : Fin 2 → Nat) a + S64x1024.size a ≤ S64x8192.size a
  h_S64x1024 : 0 < S64x1024.numel
  reduces_S512x1024_S512 : S512x1024.Reduces [1] S512
  shapeCasts_S512_S512x1 : S512.ShapeCasts S512x1
  inb_S512x8192_S512x1024_0_0 : ∀ a, (![0, 0] : Fin 2 → Nat) a + S512x1024.size a ≤ S512x8192.size a
  h_S512x1024 : 0 < S512x1024.numel
  shapeCasts_S512x1024_S512x1024 : S512x1024.ShapeCasts S512x1024
  packedbf16_S512x8192_S512x1024_0_0 : (Rect.unit (s := S512x8192) ![0, 0] S512x1024.size inb_S512x8192_S512x1024_0_0).PackedRows (EltTy.packing .bf16)
  inb_S16x8192_S16x1024_0_0 : ∀ a, (![0, 0] : Fin 2 → Nat) a + S16x1024.size a ≤ S16x8192.size a
  h_S16x1024 : 0 < S16x1024.numel
  shapeCasts_S16x1024_S16x1024 : S16x1024.ShapeCasts S16x1024
  inb_S64x8192_S64x1024_0_1024 : ∀ a, (![0, 1024] : Fin 2 → Nat) a + S64x1024.size a ≤ S64x8192.size a
  inb_S512x8192_S512x1024_0_1024 : ∀ a, (![0, 1024] : Fin 2 → Nat) a + S512x1024.size a ≤ S512x8192.size a
  packedbf16_S512x8192_S512x1024_0_1024 : (Rect.unit (s := S512x8192) ![0, 1024] S512x1024.size inb_S512x8192_S512x1024_0_1024).PackedRows (EltTy.packing .bf16)
  inb_S16x8192_S16x1024_0_1024 : ∀ a, (![0, 1024] : Fin 2 → Nat) a + S16x1024.size a ≤ S16x8192.size a
  inb_S64x8192_S64x1024_0_2048 : ∀ a, (![0, 2048] : Fin 2 → Nat) a + S64x1024.size a ≤ S64x8192.size a
  inb_S512x8192_S512x1024_0_2048 : ∀ a, (![0, 2048] : Fin 2 → Nat) a + S512x1024.size a ≤ S512x8192.size a
  packedbf16_S512x8192_S512x1024_0_2048 : (Rect.unit (s := S512x8192) ![0, 2048] S512x1024.size inb_S512x8192_S512x1024_0_2048).PackedRows (EltTy.packing .bf16)
  inb_S16x8192_S16x1024_0_2048 : ∀ a, (![0, 2048] : Fin 2 → Nat) a + S16x1024.size a ≤ S16x8192.size a
  inb_S64x8192_S64x1024_0_3072 : ∀ a, (![0, 3072] : Fin 2 → Nat) a + S64x1024.size a ≤ S64x8192.size a
  inb_S512x8192_S512x1024_0_3072 : ∀ a, (![0, 3072] : Fin 2 → Nat) a + S512x1024.size a ≤ S512x8192.size a
  packedbf16_S512x8192_S512x1024_0_3072 : (Rect.unit (s := S512x8192) ![0, 3072] S512x1024.size inb_S512x8192_S512x1024_0_3072).PackedRows (EltTy.packing .bf16)
  inb_S16x8192_S16x1024_0_3072 : ∀ a, (![0, 3072] : Fin 2 → Nat) a + S16x1024.size a ≤ S16x8192.size a
  inb_S64x8192_S64x1024_0_4096 : ∀ a, (![0, 4096] : Fin 2 → Nat) a + S64x1024.size a ≤ S64x8192.size a
  inb_S512x8192_S512x1024_0_4096 : ∀ a, (![0, 4096] : Fin 2 → Nat) a + S512x1024.size a ≤ S512x8192.size a
  packedbf16_S512x8192_S512x1024_0_4096 : (Rect.unit (s := S512x8192) ![0, 4096] S512x1024.size inb_S512x8192_S512x1024_0_4096).PackedRows (EltTy.packing .bf16)
  inb_S16x8192_S16x1024_0_4096 : ∀ a, (![0, 4096] : Fin 2 → Nat) a + S16x1024.size a ≤ S16x8192.size a
  inb_S64x8192_S64x1024_0_5120 : ∀ a, (![0, 5120] : Fin 2 → Nat) a + S64x1024.size a ≤ S64x8192.size a
  inb_S512x8192_S512x1024_0_5120 : ∀ a, (![0, 5120] : Fin 2 → Nat) a + S512x1024.size a ≤ S512x8192.size a
  packedbf16_S512x8192_S512x1024_0_5120 : (Rect.unit (s := S512x8192) ![0, 5120] S512x1024.size inb_S512x8192_S512x1024_0_5120).PackedRows (EltTy.packing .bf16)
  inb_S16x8192_S16x1024_0_5120 : ∀ a, (![0, 5120] : Fin 2 → Nat) a + S16x1024.size a ≤ S16x8192.size a
  inb_S64x8192_S64x1024_0_6144 : ∀ a, (![0, 6144] : Fin 2 → Nat) a + S64x1024.size a ≤ S64x8192.size a
  inb_S512x8192_S512x1024_0_6144 : ∀ a, (![0, 6144] : Fin 2 → Nat) a + S512x1024.size a ≤ S512x8192.size a
  packedbf16_S512x8192_S512x1024_0_6144 : (Rect.unit (s := S512x8192) ![0, 6144] S512x1024.size inb_S512x8192_S512x1024_0_6144).PackedRows (EltTy.packing .bf16)
  inb_S16x8192_S16x1024_0_6144 : ∀ a, (![0, 6144] : Fin 2 → Nat) a + S16x1024.size a ≤ S16x8192.size a
  inb_S64x8192_S64x1024_0_7168 : ∀ a, (![0, 7168] : Fin 2 → Nat) a + S64x1024.size a ≤ S64x8192.size a
  inb_S512x8192_S512x1024_0_7168 : ∀ a, (![0, 7168] : Fin 2 → Nat) a + S512x1024.size a ≤ S512x8192.size a
  packedbf16_S512x8192_S512x1024_0_7168 : (Rect.unit (s := S512x8192) ![0, 7168] S512x1024.size inb_S512x8192_S512x1024_0_7168).PackedRows (EltTy.packing .bf16)
  inb_S16x8192_S16x1024_0_7168 : ∀ a, (![0, 7168] : Fin 2 → Nat) a + S16x1024.size a ≤ S16x8192.size a
  transposes_S512x1_p1_0_S1x512 : S512x1.Transposes [1, 0] S1x512
  broadcasts_S1x512_S16x512 : S1x512.Broadcasts S16x512
  shapeCasts_S16x8192_S16x8192 : S16x8192.ShapeCasts S16x8192
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x1024_S512x1024_1_0_0_1_n_n_wf : DotDims.WF S512x64 S64x1024 S512x1024 [1] [0] [0] [1] [] []
  dot_S16x512_S512x1024_S16x1024_1_0_0_1_n_n_wf : DotDims.WF S16x512 S512x1024 S16x1024 [1] [0] [0] [1] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ (k0_h2 : k0_cond2 i = 1#1), ∀ a, (k0_off1 i) a + S512x128.size a ≤ S8192x128.size a
  k0_off2_inb : ∀ i : grid0.Coords, ∀ (k0_h2 : k0_cond2 i = 1#1), ∀ a, (k0_off2 i) a + S16x512.size a ≤ S16x8192.size a
  k0_off3_inb : ∀ i : grid0.Coords, ∀ (k0_h3 : k0_cond3 i = 1#1), ∀ a, (k0_off3 i) a + S512x128.size a ≤ S8192x128.size a
  k0_off4_inb : ∀ i : grid0.Coords, ∀ (k0_h3 : k0_cond3 i = 1#1), ∀ a, (k0_off4 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Body.Shared.lean ====
/- Which point is of which kind, the body's arguments at a point, and the resting invariant over the five scratch arrays. -/
import proofs.«119842_g5935644803188_cont_9to1c4b_610_16_alg».proof.Proof.Gen.KernelIdeal.Frame
import proofs.«119842_g5935644803188_cont_9to1c4b_610_16_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev atFirst (i : grid0.Coords) : Prop := k0_cond1 i = 1#1

abbrev atEven (i : grid0.Coords) : Prop := k0_cond2 i = 1#1

abbrev atOdd (i : grid0.Coords) : Prop := k0_cond3 i = 1#1

abbrev atLast (i : grid0.Coords) : Prop := k0_cond4 i = 1#1

theorem atFirst_iff : ∀ t : Fin cfg0.N, atFirst (grid0.coords t) ↔ t.val = 0 :=
  (by decide +kernel : ∀ t : Fin grid0.N, atFirst (grid0.coords t) ↔ t.val = 0)
theorem atEven_iff : ∀ t : Fin cfg0.N, atEven (grid0.coords t) ↔ t.val % 2 = 0 :=
  (by decide +kernel : ∀ t : Fin grid0.N, atEven (grid0.coords t) ↔ t.val % 2 = 0)
theorem atOdd_iff : ∀ t : Fin cfg0.N, atOdd (grid0.coords t) ↔ t.val % 2 = 1 :=
  (by decide +kernel : ∀ t : Fin grid0.N, atOdd (grid0.coords t) ↔ t.val % 2 = 1)
theorem atLast_iff : ∀ t : Fin cfg0.N, atLast (grid0.coords t) ↔ t.val = 15 :=
  (by decide +kernel : ∀ t : Fin grid0.N, atLast (grid0.coords t) ↔ t.val = 15)

theorem kind_first (t : Fin cfg0.N) (hz : t.val = 0) : atFirst (grid0.coords t) ∧ atEven (grid0.coords t) ∧ ¬atOdd (grid0.coords t) ∧ ¬atLast (grid0.coords t) :=
  ⟨(atFirst_iff t).mpr hz, (atEven_iff t).mpr (by omega), fun h => by have := (atOdd_iff t).mp h; omega,
    fun h => by have := (atLast_iff t).mp h; omega⟩
theorem kind_even (t : Fin cfg0.N) (he : t.val % 2 = 0) (hz : t.val ≠ 0) : ¬atFirst (grid0.coords t) ∧ atEven (grid0.coords t) ∧ ¬atOdd (grid0.coords t) ∧ ¬atLast (grid0.coords t) :=
  ⟨fun h => hz ((atFirst_iff t).mp h), (atEven_iff t).mpr he, fun h => by have := (atOdd_iff t).mp h; omega,
    fun h => by have := (atLast_iff t).mp h; omega⟩
theorem kind_odd (t : Fin cfg0.N) (he : ¬t.val % 2 = 0) (hl : ¬t.val = 15) : ¬atFirst (grid0.coords t) ∧ ¬atEven (grid0.coords t) ∧ atOdd (grid0.coords t) ∧ ¬atLast (grid0.coords t) :=
  ⟨fun h => he (by have := (atFirst_iff t).mp h; omega), fun h => he ((atEven_iff t).mp h), (atOdd_iff t).mpr (by omega),
    fun h => hl ((atLast_iff t).mp h)⟩
theorem kind_last (t : Fin cfg0.N) (he : ¬t.val % 2 = 0) (hl : t.val = 15) : ¬atFirst (grid0.coords t) ∧ ¬atEven (grid0.coords t) ∧ atOdd (grid0.coords t) ∧ atLast (grid0.coords t) :=
  ⟨fun h => he (by have := (atFirst_iff t).mp h; omega), fun h => he ((atEven_iff t).mp h), (atOdd_iff t).mpr (by omega),
    (atLast_iff t).mpr hl⟩

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

theorem live6 : ∀ t : Fin cfg0.N, cfg0.idle 6 (grid0.coords t) = false := by decide +kernel

abbrev sm0 (t : Fin cfg0.N) : Memref sig .tc .vmem S16x8192 .f32 := win0_0.stage (cfg0.slots t 0)
abbrev sw0 (t : Fin cfg0.N) : (sm0 t).IsWhole := hstage0_0 ((cfg0.slots t 0).cast nbuf0_0)
abbrev sm1 (t : Fin cfg0.N) : Memref sig .tc .vmem S8192x128 .f32 := win0_1.stage (cfg0.slots t 1)
abbrev sw1 (t : Fin cfg0.N) : (sm1 t).IsWhole := hstage0_1 ((cfg0.slots t 1).cast nbuf0_1)
abbrev sm2 (t : Fin cfg0.N) : Memref sig .tc .vmem S64x128 .f32 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x64 .f32 := win0_3.stage (cfg0.slots t 3)
abbrev sw3 (t : Fin cfg0.N) : (sm3 t).IsWhole := hstage0_3 ((cfg0.slots t 3).cast nbuf0_3)
abbrev sm4 (t : Fin cfg0.N) : Memref sig .tc .vmem S64x128 .f32 := win0_4.stage (cfg0.slots t 4)
abbrev sw4 (t : Fin cfg0.N) : (sm4 t).IsWhole := hstage0_4 ((cfg0.slots t 4).cast nbuf0_4)
abbrev sm5 (t : Fin cfg0.N) : Memref sig .tc .vmem S64x1 .f32 := win0_5.stage (cfg0.slots t 5)
abbrev sw5 (t : Fin cfg0.N) : (sm5 t).IsWhole := hstage0_5 ((cfg0.slots t 5).cast nbuf0_5)
abbrev sm6 (t : Fin cfg0.N) : Memref sig .tc .vmem S16x8192 .f32 := win0_6.stage (cfg0.slots t 6)
abbrev sw6 (t : Fin cfg0.N) : (sm6 t).IsWhole := hstage0_6 ((cfg0.slots t 6).cast nbuf0_6)

abbrev ktM : Memref sig .tc .vmem S64x8192 .bf16 := Memref.whole cc0_scratch0
abbrev paM : Memref sig .tc .vmem S512x8192 .bf16 := Memref.whole cc0_scratch1
abbrev pbM : Memref sig .tc .vmem S512x8192 .bf16 := Memref.whole cc0_scratch2
abbrev waM : Memref sig .tc .vmem S16x512 .bf16 := Memref.whole cc0_scratch3
abbrev wbM : Memref sig .tc .vmem S16x512 .bf16 := Memref.whole cc0_scratch4

theorem phiA_eq (c : Dev nD) :
    (Pipeline.ΦA spec0 c : sProp 𝕄)
      = iprop(iprop((∃ d, owns (c : Thread nD τ) ktM fullShare d) ∗ (∃ d, owns (c : Thread nD τ) paM fullShare d) ∗ (∃ d, owns (c : Thread nD τ) pbM fullShare d) ∗ (∃ d, owns (c : Thread nD τ) waM fullShare d) ∗ (∃ d, owns (c : Thread nD τ) wbM fullShare d)) ∗ (∃ r, prngReg c r)) := by
  unfold Pipeline.ΦA; rw [scopedRest0_eq]; simp only [ktM, paM, pbM, waM, wbM, owns_whole]; try rfl

end Cert.KernelIdeal.Body

end
-- ==== Proof.Body.RunFirst.lean ====
/- The body run at the first point, with the pieces it stores left to be read off. -/
import proofs.«119842_g5935644803188_cont_9to1c4b_610_16_alg».proof.Proof.Body.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : atFirst i) (hc1 : atEven i) (hc2 : ¬atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32)  :
    Σ' (LO : List (View.Piece (Elt F) S16x8192 .f32)) (LKT : List (View.Piece (Elt F) S64x8192 .bf16)) (LPA : List (View.Piece (Elt F) S512x8192 .bf16)) (LPB : List (View.Piece (Elt F) S512x8192 .bf16)) (LWA : List (View.Piece (Elt F) S16x512 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LKT) ∗ (∃ f, arg9.view.loc (c : Thread nD τ) ↦[arg9.view.set]{fullShare} arg9.view.writes (Elt F) f LPA) ∗ (∃ f, arg10.view.loc (c : Thread nD τ) ↦[arg10.view.set]{fullShare} arg10.view.writes (Elt F) f LPB) ∗ (∃ f, arg11.view.loc (c : Thread nD τ) ↦[arg11.view.set]{fullShare} arg11.view.writes (Elt F) f LWA) ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, B7⟩, ⟨%d8, %g8, -, B8⟩, ⟨%d9, %g9, -, B9⟩, ⟨%d10, %g10, -, B10⟩, ⟨%d11, %g11, -, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; iexact B8
    isplitl [B9]
    · iexists _; iexact B9
    isplitl [B10]
    · iexists _; iexact B10
    isplitl [B11]
    · iexists _; iexact B11
    iexists _; iexact B12

end Cert.KernelIdeal.Body

end
-- ==== Proof.Body.RunEven.lean ====
/- The body run at an even point after the first, with the pieces it stores left to be read off. -/
import proofs.«119842_g5935644803188_cont_9to1c4b_610_16_alg».proof.Proof.Body.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runEven (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : atEven i) (hc2 : ¬atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpb : Vec F S512x8192 .bf16) (xwb : Vec F S16x512 .bf16) :
    Σ' (LO : List (View.Piece (Elt F) S16x8192 .f32)) (LPA : List (View.Piece (Elt F) S512x8192 .bf16)) (LWA : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ (∃ d, owns (c : Thread nD τ) arg9 fullShare d) ∗ owns (c : Thread nD τ) arg10 fullShare xpb ∗ (∃ d, owns (c : Thread nD τ) arg11 fullShare d) ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ (∃ f, arg9.view.loc (c : Thread nD τ) ↦[arg9.view.set]{fullShare} arg9.view.writes (Elt F) f LPA) ∗ owns (c : Thread nD τ) arg10 fullShare xpb ∗ (∃ f, arg11.view.loc (c : Thread nD τ) ↦[arg11.view.set]{fullShare} arg11.view.writes (Elt F) f LWA) ∗ owns (c : Thread nD τ) arg12 fullShare xwb) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%d9, %g9, -, B9⟩, ⟨%g10, %hg10, B10⟩, ⟨%d11, %g11, -, B11⟩, ⟨%g12, %hg12, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg10.eq_unread hg10; obtain rfl := harg12.eq_unread hg12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; iexact B9
    isplitl [B10]
    · iexists _; isplitr; · ipureintro; exact harg10.read_unread _
      iexact B10
    isplitl [B11]
    · iexists _; iexact B11
    iexists _; isplitr; · ipureintro; exact harg12.read_unread _
    iexact B12

end Cert.KernelIdeal.Body

end
-- ==== Proof.Body.RunOdd.lean ====
/- The body run at an odd point before the last, with the pieces it stores left to be read off. -/
import proofs.«119842_g5935644803188_cont_9to1c4b_610_16_alg».proof.Proof.Body.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runOdd (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpa : Vec F S512x8192 .bf16) (xwa : Vec F S16x512 .bf16) :
    Σ' (LO : List (View.Piece (Elt F) S16x8192 .f32)) (LPB : List (View.Piece (Elt F) S512x8192 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ owns (c : Thread nD τ) arg9 fullShare xpa ∗ (∃ d, owns (c : Thread nD τ) arg10 fullShare d) ∗ owns (c : Thread nD τ) arg11 fullShare xwa ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ owns (c : Thread nD τ) arg9 fullShare xpa ∗ (∃ f, arg10.view.loc (c : Thread nD τ) ↦[arg10.view.set]{fullShare} arg10.view.writes (Elt F) f LPB) ∗ owns (c : Thread nD τ) arg11 fullShare xwa ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%g9, %hg9, B9⟩, ⟨%d10, %g10, -, B10⟩, ⟨%g11, %hg11, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg9.eq_unread hg9; obtain rfl := harg11.eq_unread hg11
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; isplitr; · ipureintro; exact harg9.read_unread _
      iexact B9
    isplitl [B10]
    · iexists _; iexact B10
    isplitl [B11]
    · iexists _; isplitr; · ipureintro; exact harg11.read_unread _
      iexact B11
    iexists _; iexact B12

end Cert.KernelIdeal.Body

end
-- ==== Proof.Body.RunLast.lean ====
/- The body run at the last point, with the pieces it stores left to be read off. -/
import proofs.«119842_g5935644803188_cont_9to1c4b_610_16_alg».proof.Proof.Body.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpa : Vec F S512x8192 .bf16) (xwa : Vec F S16x512 .bf16) :
    Σ' (LO : List (View.Piece (Elt F) S16x8192 .f32)) (LPB : List (View.Piece (Elt F) S512x8192 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ owns (c : Thread nD τ) arg9 fullShare xpa ∗ (∃ d, owns (c : Thread nD τ) arg10 fullShare d) ∗ owns (c : Thread nD τ) arg11 fullShare xwa ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ owns (c : Thread nD τ) arg9 fullShare xpa ∗ (∃ f, arg10.view.loc (c : Thread nD τ) ↦[arg10.view.set]{fullShare} arg10.view.writes (Elt F) f LPB) ∗ owns (c : Thread nD τ) arg11 fullShare xwa ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%g9, %hg9, B9⟩, ⟨%d10, %g10, -, B10⟩, ⟨%g11, %hg11, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg9.eq_unread hg9; obtain rfl := harg11.eq_unread hg11
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; isplitr; · ipureintro; exact harg9.read_unread _
      iexact B9
    isplitl [B10]
    · iexists _; iexact B10
    isplitl [B11]
    · iexists _; isplitr; · ipureintro; exact harg11.read_unread _
      iexact B11
    iexists _; iexact B12

end Cert.KernelIdeal.Body

end
-- ==== Proof.Body.State.lean ====
/- The six stored arrays after each point, as a recursion over the points. -/
import proofs.«119842_g5935644803188_cont_9to1c4b_610_16_alg».proof.Proof.Body.RunFirst
import proofs.«119842_g5935644803188_cont_9to1c4b_610_16_alg».proof.Proof.Body.RunEven
import proofs.«119842_g5935644803188_cont_9to1c4b_610_16_alg».proof.Proof.Body.RunOdd
import proofs.«119842_g5935644803188_cont_9to1c4b_610_16_alg».proof.Proof.Body.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

structure St (F : FTy → Type) [FloatOps F] where
  out : Vec F S16x8192 .f32
  kt : Vec F S64x8192 .bf16
  pa : Vec F S512x8192 .bf16
  pb : Vec F S512x8192 .bf16
  wa : Vec F S16x512 .bf16
  wb : Vec F S16x512 .bf16

def rd {S : Shape} {e : EltTy} (M : Memref sig .tc .vmem S e) (L : List (View.Piece (Elt F) S e)) : Vec F S e :=
  M.view.read (Elt F) (M.view.writes (Elt F) M.view.junk L)

def stFirst (c : Dev nD) (t : Fin cfg0.N) (h0 : atFirst (grid0.coords t)) (h1 : atEven (grid0.coords t)) (h2 : ¬atOdd (grid0.coords t)) (h3 : ¬atLast (grid0.coords t)) : St F :=
  let R := runFirst c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t)
  ⟨rd (sm6 t) R.1, rd ktM R.2.1, rd paM R.2.2.1, rd pbM R.2.2.2.1, rd waM R.2.2.2.2.1, rd wbM R.2.2.2.2.2.1⟩

def stEven (c : Dev nD) (t : Fin cfg0.N) (h0 : ¬atFirst (grid0.coords t)) (h1 : atEven (grid0.coords t)) (h2 : ¬atOdd (grid0.coords t)) (h3 : ¬atLast (grid0.coords t)) (s : St F) : St F :=
  let R := runEven c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pb s.wb
  ⟨rd (sm6 t) R.1, s.kt, rd paM R.2.1, s.pb, rd waM R.2.2.1, s.wb⟩

def stOdd (c : Dev nD) (t : Fin cfg0.N) (h0 : ¬atFirst (grid0.coords t)) (h1 : ¬atEven (grid0.coords t)) (h2 : atOdd (grid0.coords t)) (h3 : ¬atLast (grid0.coords t)) (s : St F) : St F :=
  let R := runOdd c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pa s.wa
  ⟨rd (sm6 t) R.1, s.kt, s.pa, rd pbM R.2.1, s.wa, rd wbM R.2.2.1⟩

def stLast (c : Dev nD) (t : Fin cfg0.N) (h0 : ¬atFirst (grid0.coords t)) (h1 : ¬atEven (grid0.coords t)) (h2 : atOdd (grid0.coords t)) (h3 : atLast (grid0.coords t)) (s : St F) : St F :=
  let R := runLast c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pa s.wa
  ⟨rd (sm6 t) R.1, s.kt, s.pa, rd pbM R.2.1, s.wa, rd wbM R.2.2.1⟩

theorem N16 : cfg0.N = 16 := N_0

def stAt (c : Dev nD) : (n : ℕ) → n < cfg0.N → St F
  | 0, hn => stFirst m c ⟨0, hn⟩ (kind_first ⟨0, hn⟩ rfl).1 (kind_first ⟨0, hn⟩ rfl).2.1 (kind_first ⟨0, hn⟩ rfl).2.2.1 (kind_first ⟨0, hn⟩ rfl).2.2.2
  | n + 1, hn =>
    if he : (n + 1) % 2 = 0 then
      stEven m c ⟨n + 1, hn⟩ (kind_even ⟨n + 1, hn⟩ he (Nat.succ_ne_zero n)).1 (kind_even ⟨n + 1, hn⟩ he (Nat.succ_ne_zero n)).2.1 (kind_even ⟨n + 1, hn⟩ he (Nat.succ_ne_zero n)).2.2.1 (kind_even ⟨n + 1, hn⟩ he (Nat.succ_ne_zero n)).2.2.2 (stAt c n (Nat.lt_of_succ_lt hn))
    else if hl : n + 1 = 15 then
      stLast m c ⟨n + 1, hn⟩ (kind_last ⟨n + 1, hn⟩ he hl).1 (kind_last ⟨n + 1, hn⟩ he hl).2.1 (kind_last ⟨n + 1, hn⟩ he hl).2.2.1 (kind_last ⟨n + 1, hn⟩ he hl).2.2.2 (stAt c n (Nat.lt_of_succ_lt hn))
    else
      stOdd m c ⟨n + 1, hn⟩ (kind_odd ⟨n + 1, hn⟩ he hl).1 (kind_odd ⟨n + 1, hn⟩ he hl).2.1 (kind_odd ⟨n + 1, hn⟩ he hl).2.2.1 (kind_odd ⟨n + 1, hn⟩ he hl).2.2.2 (stAt c n (Nat.lt_of_succ_lt hn))

theorem stAt_first (c : Dev nD) (t : Fin cfg0.N) (hz : t.val = 0) (h0 : atFirst (grid0.coords t)) (h1 : atEven (grid0.coords t)) (h2 : ¬atOdd (grid0.coords t)) (h3 : ¬atLast (grid0.coords t)) :
    stAt m c t.val t.isLt = stFirst m c t h0 h1 h2 h3 := by
  obtain ⟨n, hn⟩ := t
  cases n with
  | zero => rfl
  | succ n => exact absurd hz (Nat.succ_ne_zero n)

theorem stAt_even (c : Dev nD) (t : Fin cfg0.N) (he : t.val % 2 = 0) (hz : t.val ≠ 0) (h0 : ¬atFirst (grid0.coords t)) (h1 : atEven (grid0.coords t)) (h2 : ¬atOdd (grid0.coords t)) (h3 : ¬atLast (grid0.coords t)) :
    stAt m c t.val t.isLt = stEven m c t h0 h1 h2 h3 (stAt m c (t.val - 1) (Nat.lt_of_le_of_lt (Nat.sub_le _ _) t.isLt)) := by
  obtain ⟨n, hn⟩ := t
  cases n with
  | zero => exact absurd rfl hz
  | succ n => exact (dif_pos he).trans rfl

theorem stAt_odd (c : Dev nD) (t : Fin cfg0.N) (he : ¬t.val % 2 = 0) (hl : ¬t.val = 15) (h0 : ¬atFirst (grid0.coords t)) (h1 : ¬atEven (grid0.coords t)) (h2 : atOdd (grid0.coords t)) (h3 : ¬atLast (grid0.coords t)) :
    stAt m c t.val t.isLt = stOdd m c t h0 h1 h2 h3 (stAt m c (t.val - 1) (Nat.lt_of_le_of_lt (Nat.sub_le _ _) t.isLt)) := by
  obtain ⟨n, hn⟩ := t
  cases n with
  | zero => exact absurd (Nat.zero_mod 2) he
  | succ n => exact (dif_neg he).trans ((dif_neg hl).trans rfl)

theorem stAt_last (c : Dev nD) (t : Fin cfg0.N) (he : ¬t.val % 2 = 0) (hl : t.val = 15) (h0 : ¬atFirst (grid0.coords t)) (h1 : ¬atEven (grid0.coords t)) (h2 : atOdd (grid0.coords t)) (h3 : atLast (grid0.coords t)) :
    stAt m c t.val t.isLt = stLast m c t h0 h1 h2 h3 (stAt m c (t.val - 1) (Nat.lt_of_le_of_lt (Nat.sub_le _ _) t.isLt)) := by
  obtain ⟨n, hn⟩ := t
  cases n with
  | zero => exact absurd (Nat.zero_mod 2) he
  | succ n => exact (dif_neg he).trans ((dif_pos hl).trans rfl)

end Cert.KernelIdeal.Body

end
-- ==== Proof.Body.Data.lean ====
/- The invariant between points, the body's obligation at each kind of point, and the frame. -/
import proofs.«119842_g5935644803188_cont_9to1c4b_610_16_alg».proof.Proof.Body.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem owns_rd (c : Dev nD) {S : Shape} {e : EltTy} (M : Memref sig .tc .vmem S e) (L : List (View.Piece (Elt F) S e))
    (hcov : ∀ y, ∃ p ∈ L, y ∈ p.1.set) (f : BufTy.Contents (Elt F) M.view.ty) :
    (iprop(M.view.loc (c : Thread nD τ) ↦[M.view.set]{fullShare} M.view.writes (Elt F) f L) : sProp 𝕄)
      ⊢ owns (c : Thread nD τ) M fullShare (rd M L) := by
  unfold owns
  iintro H
  iexists _; isplitr
  swap; · iexact H
  ipureintro; exact View.read_writes_of_cover _ _ _ _ _ hcov

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) ktM fullShare (stAt m c n hn).kt ∗ owns (c : Thread nD τ) paM fullShare (stAt m c n hn).pa ∗ owns (c : Thread nD τ) pbM fullShare (stAt m c n hn).pb ∗ owns (c : Thread nD τ) waM fullShare (stAt m c n hn).wa ∗ owns (c : Thread nD τ) wbM fullShare (stAt m c n hn).wb) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) ktM fullShare (stAt m c n hn).kt ∗ owns (c : Thread nD τ) paM fullShare (stAt m c n hn).pa ∗ owns (c : Thread nD τ) pbM fullShare (stAt m c n hn).pb ∗ owns (c : Thread nD τ) waM fullShare (stAt m c n hn).wa ∗ owns (c : Thread nD τ) wbM fullShare (stAt m c n hn).wb) ∗ (∃ r, prngReg c r)) := rfl

theorem PhiS_pos (c : Dev nD) (n : ℕ) (h : n ≤ cfg0.N) (hz : n ≠ 0) :
    PhiS m c n h = iprop(iprop(owns (c : Thread nD τ) ktM fullShare (stAt m c (n - 1) (by omega)).kt ∗ owns (c : Thread nD τ) paM fullShare (stAt m c (n - 1) (by omega)).pa ∗ owns (c : Thread nD τ) pbM fullShare (stAt m c (n - 1) (by omega)).pb ∗ owns (c : Thread nD τ) waM fullShare (stAt m c (n - 1) (by omega)).wa ∗ owns (c : Thread nD τ) wbM fullShare (stAt m c (n - 1) (by omega)).wb) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t.val t.isLt).out := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem live6_all : ∀ i : cfg0.grid.Coords, cfg0.idle 6 i = false := by decide +kernel

theorem before_6 (c : Dev nD) (t : Fin cfg0.N) (hz : t.val ≠ 0) (d) :
    (dats m 0 c).before 6 t d = (stAt m c (t.val - 1) (Nat.lt_of_le_of_lt (Nat.sub_le _ _) t.isLt)).out := by
  have hN : t.val < 16 := lt_of_lt_of_eq t.isLt N16
  rw [(dats m 0 c).before_out_kept 6 rfl t hz
    (by cases hfl : (cfg0.win 6).flush ⟨t.val - 1, Nat.lt_of_le_of_lt (Nat.sub_le _ _) t.isLt⟩ with
        | false => rfl
        | true => exact absurd ((flush0_6 _).mp hfl) (by (try dsimp only); omega))
    live6_all (fun _ _ => rfl) d, after_6]

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem bodyPost_eq (c : Dev nD) (t : Fin cfg0.N) :
    bodyPost m c t = iprop(PhiS m c (t.val + 1) t.isLt ∗ (dats m 0 c).owesAt () t.castSucc
      ∗ owns (c : Thread nD τ) (sm0 t) fullShare (iblk m c 0 t) ∗ owns (c : Thread nD τ) (sm1 t) fullShare (iblk m c 1 t)
      ∗ owns (c : Thread nD τ) (sm2 t) fullShare (iblk m c 2 t) ∗ owns (c : Thread nD τ) (sm3 t) fullShare (iblk m c 3 t)
      ∗ owns (c : Thread nD τ) (sm4 t) fullShare (iblk m c 4 t) ∗ owns (c : Thread nD τ) (sm5 t) fullShare (iblk m c 5 t)
      ∗ owns (c : Thread nD τ) (sm6 t) fullShare (stAt m c t.val t.isLt).out) := by
  unfold bodyPost
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (sm0 t) fullShare ((dats m 0 c).after 0 t) from by
    unfold Dat.leavesExact; rw [live0 t], after_0]
  rw [show (dats m 0 c).leavesExact 1 t = owns (c : Thread nD τ) (sm1 t) fullShare ((dats m 0 c).after 1 t) from by
    unfold Dat.leavesExact; rw [live1 t], after_1]
  rw [show (dats m 0 c).leavesExact 2 t = owns (c : Thread nD τ) (sm2 t) fullShare ((dats m 0 c).after 2 t) from by
    unfold Dat.leavesExact; rw [live2 t], after_2]
  rw [show (dats m 0 c).leavesExact 3 t = owns (c : Thread nD τ) (sm3 t) fullShare ((dats m 0 c).after 3 t) from by
    unfold Dat.leavesExact; rw [live3 t], after_3]
  rw [show (dats m 0 c).leavesExact 4 t = owns (c : Thread nD τ) (sm4 t) fullShare ((dats m 0 c).after 4 t) from by
    unfold Dat.leavesExact; rw [live4 t], after_4]
  rw [show (dats m 0 c).leavesExact 5 t = owns (c : Thread nD τ) (sm5 t) fullShare ((dats m 0 c).after 5 t) from by
    unfold Dat.leavesExact; rw [live5 t], after_5]
  rw [show (dats m 0 c).leavesExact 6 t = owns (c : Thread nD τ) (sm6 t) fullShare ((dats m 0 c).after 6 t) from by
    unfold Dat.leavesExact; rw [live6 t], after_6]

set_option maxHeartbeats 4000000 in
theorem sound_first (c : Dev nD) (t : Fin cfg0.N) (hz : t.val = 0) :
    bodyPre m c t ⊢ wp frame (wpE (defs₀ (F := F)) Variants.none c none) Set.univ (bodyAt0 t) (fun _ => bodyPost m c t) := by
  obtain ⟨h0, h1, h2, h3⟩ := kind_first t hz
  unfold bodyPre bodyAt0
  rw [bodyPost_eq, PhiS_succ]
  simp only [before_0, before_1, before_2, before_3, before_4, before_5]
  rw [PhiS_castSucc m c t, PhiS_zero m c _ _ hz, phiA_eq]
  rw [stAt_first m c t hz h0 h1 h2 h3]

  unfold stFirst; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t)).2.2.2.2.2.2 Set.univ _)
  iframe H0 H1 H2 H3 H4 H5 HS0 HS1 HS2 HS3 HS4
  isplitl [H6]; · iexists _; iexact H6
  iintro ⟨H0, H1, H2, H3, H4, H5, ⟨%e7, H6⟩, ⟨%e8, HS0⟩, ⟨%e9, HS1⟩, ⟨%e10, HS2⟩, ⟨%e11, HS3⟩, ⟨%e12, HS4⟩⟩
  isplitl [HS0 HS1 HS2 HS3 HS4 Hg]
  · isplitl [HS0 HS1 HS2 HS3 HS4]
    ·
      isplitl [HS0]
      · iapply owns_rd c _ _ (View.cover_of_tiledL (s := S64x8192) _ S64x8192.size (by sl_kernel_rfl)) _; iexact HS0
      isplitl [HS1]
      · iapply owns_rd c _ _ (View.cover_of_tiledL (s := S512x8192) _ S512x1024.size (by sl_kernel_rfl)) _; iexact HS1
      isplitl [HS2]
      · iapply owns_rd c _ _ (View.cover_of_tiledL (s := S512x8192) _ S512x8192.size (by sl_kernel_rfl)) _; iexact HS2
      isplitl [HS3]
      · iapply owns_rd c _ _ (View.cover_of_tiledL (s := S16x512) _ S16x512.size (by sl_kernel_rfl)) _; iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_even (c : Dev nD) (t : Fin cfg0.N) (he : t.val % 2 = 0) (hz : t.val ≠ 0) :
    bodyPre m c t ⊢ wp frame (wpE (defs₀ (F := F)) Variants.none c none) Set.univ (bodyAt0 t) (fun _ => bodyPost m c t) := by
  obtain ⟨h0, h1, h2, h3⟩ := kind_even t he hz
  unfold bodyPre bodyAt0
  rw [bodyPost_eq, PhiS_succ]
  simp only [before_0, before_1, before_2, before_3, before_4, before_5, before_6 m c t hz]
  rw [PhiS_castSucc m c t, PhiS_pos m c _ _ hz]
  rw [stAt_even m c t he hz h0 h1 h2 h3]
  generalize stAt m c (t.val - 1) _ = s
  unfold stEven; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runEven c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pb s.wb).2.2.2 Set.univ _)
  iframe H0 H1 H2 H3 H4 H5 H6 HS0 HS2 HS4
  isplitl [HS1]; · iexists _; iexact HS1
  isplitl [HS3]; · iexists _; iexact HS3
  iintro ⟨H0, H1, H2, H3, H4, H5, ⟨%e7, H6⟩, HS0, ⟨%e9, HS1⟩, HS2, ⟨%e11, HS3⟩, HS4⟩
  isplitl [HS0 HS1 HS2 HS3 HS4 Hg]
  · isplitl [HS0 HS1 HS2 HS3 HS4]
    ·
      isplitl [HS0]
      · iexact HS0
      isplitl [HS1]
      · iapply owns_rd c _ _ (View.cover_of_tiledL (s := S512x8192) _ S512x1024.size (by sl_kernel_rfl)) _; iexact HS1
      isplitl [HS2]
      · iexact HS2
      isplitl [HS3]
      · iapply owns_rd c _ _ (View.cover_of_tiledL (s := S16x512) _ S16x512.size (by sl_kernel_rfl)) _; iexact HS3
      iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_odd (c : Dev nD) (t : Fin cfg0.N) (he : ¬t.val % 2 = 0) (hl : ¬t.val = 15) :
    bodyPre m c t ⊢ wp frame (wpE (defs₀ (F := F)) Variants.none c none) Set.univ (bodyAt0 t) (fun _ => bodyPost m c t) := by
  have hz : t.val ≠ 0 := fun h => he (by omega)
  obtain ⟨h0, h1, h2, h3⟩ := kind_odd t he hl
  unfold bodyPre bodyAt0
  rw [bodyPost_eq, PhiS_succ]
  simp only [before_0, before_1, before_2, before_3, before_4, before_5, before_6 m c t hz]
  rw [PhiS_castSucc m c t, PhiS_pos m c _ _ hz]
  rw [stAt_odd m c t he hl h0 h1 h2 h3]
  generalize stAt m c (t.val - 1) _ = s
  unfold stOdd; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runOdd c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pa s.wa).2.2.2 Set.univ _)
  iframe H0 H1 H2 H3 H4 H5 H6 HS0 HS1 HS3
  isplitl [HS2]; · iexists _; iexact HS2
  isplitl [HS4]; · iexists _; iexact HS4
  iintro ⟨H0, H1, H2, H3, H4, H5, ⟨%e7, H6⟩, HS0, HS1, ⟨%e10, HS2⟩, HS3, ⟨%e12, HS4⟩⟩
  isplitl [HS0 HS1 HS2 HS3 HS4 Hg]
  · isplitl [HS0 HS1 HS2 HS3 HS4]
    ·
      isplitl [HS0]
      · iexact HS0
      isplitl [HS1]
      · iexact HS1
      isplitl [HS2]
      · iapply owns_rd c _ _ (View.cover_of_tiledL (s := S512x8192) _ S512x1024.size (by sl_kernel_rfl)) _; iexact HS2
      isplitl [HS3]
      · iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_last (c : Dev nD) (t : Fin cfg0.N) (he : ¬t.val % 2 = 0) (hl : t.val = 15) :
    bodyPre m c t ⊢ wp frame (wpE (defs₀ (F := F)) Variants.none c none) Set.univ (bodyAt0 t) (fun _ => bodyPost m c t) := by
  have hz : t.val ≠ 0 := fun h => he (by omega)
  obtain ⟨h0, h1, h2, h3⟩ := kind_last t he hl
  unfold bodyPre bodyAt0
  rw [bodyPost_eq, PhiS_succ]
  simp only [before_0, before_1, before_2, before_3, before_4, before_5, before_6 m c t hz]
  rw [PhiS_castSucc m c t, PhiS_pos m c _ _ hz]
  rw [stAt_last m c t he hl h0 h1 h2 h3]
  generalize stAt m c (t.val - 1) _ = s
  unfold stLast; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runLast c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pa s.wa).2.2.2 Set.univ _)
  iframe H0 H1 H2 H3 H4 H5 H6 HS0 HS1 HS3
  isplitl [HS2]; · iexists _; iexact HS2
  isplitl [HS4]; · iexists _; iexact HS4
  iintro ⟨H0, H1, H2, H3, H4, H5, ⟨%e7, H6⟩, HS0, HS1, ⟨%e10, HS2⟩, HS3, ⟨%e12, HS4⟩⟩
  isplitl [HS0 HS1 HS2 HS3 HS4 Hg]
  · isplitl [HS0 HS1 HS2 HS3 HS4]
    ·
      isplitl [HS0]
      · iexact HS0
      isplitl [HS1]
      · iexact HS1
      isplitl [HS2]
      · iapply owns_rd c _ _ (View.cover_of_tiledL (s := S512x8192) _ S512x1024.size (by sl_kernel_rfl)) _; iexact HS2
      isplitl [HS3]
      · iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  by_cases he : t.val % 2 = 0
  · exact sound_even m c t he hz
  by_cases hl : t.val = 15
  · exact sound_last m c t he hl
  · exact sound_odd m c t he hl

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N16; omega
  rw [show (dats m 0 c).Φ (Fin.last cfg0.N) = PhiS m c (Fin.last cfg0.N).val (Nat.le_of_lt_succ (Fin.last cfg0.N).isLt) from rfl, PhiS_pos m c _ _ ht, phiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.BodyW.Shared.lean ====
/- Which point is of which kind, the body's arguments at a point, and the resting invariant over the five scratch arrays. -/
import proofs.«119842_g5935644803188_cont_9to1c4b_610_16_alg».proof.Proof.Gen.Kernel.Frame
import proofs.«119842_g5935644803188_cont_9to1c4b_610_16_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev atFirst (i : grid0.Coords) : Prop := k0_cond1 i = 1#1

abbrev atEven (i : grid0.Coords) : Prop := k0_cond2 i = 1#1

abbrev atOdd (i : grid0.Coords) : Prop := k0_cond3 i = 1#1

abbrev atLast (i : grid0.Coords) : Prop := k0_cond4 i = 1#1

theorem atFirst_iff : ∀ t : Fin cfg0.N, atFirst (grid0.coords t) ↔ t.val = 0 :=
  (by decide +kernel : ∀ t : Fin grid0.N, atFirst (grid0.coords t) ↔ t.val = 0)
theorem atEven_iff : ∀ t : Fin cfg0.N, atEven (grid0.coords t) ↔ t.val % 2 = 0 :=
  (by decide +kernel : ∀ t : Fin grid0.N, atEven (grid0.coords t) ↔ t.val % 2 = 0)
theorem atOdd_iff : ∀ t : Fin cfg0.N, atOdd (grid0.coords t) ↔ t.val % 2 = 1 :=
  (by decide +kernel : ∀ t : Fin grid0.N, atOdd (grid0.coords t) ↔ t.val % 2 = 1)
theorem atLast_iff : ∀ t : Fin cfg0.N, atLast (grid0.coords t) ↔ t.val = 15 :=
  (by decide +kernel : ∀ t : Fin grid0.N, atLast (grid0.coords t) ↔ t.val = 15)

theorem kind_first (t : Fin cfg0.N) (hz : t.val = 0) : atFirst (grid0.coords t) ∧ atEven (grid0.coords t) ∧ ¬atOdd (grid0.coords t) ∧ ¬atLast (grid0.coords t) :=
  ⟨(atFirst_iff t).mpr hz, (atEven_iff t).mpr (by omega), fun h => by have := (atOdd_iff t).mp h; omega,
    fun h => by have := (atLast_iff t).mp h; omega⟩
theorem kind_even (t : Fin cfg0.N) (he : t.val % 2 = 0) (hz : t.val ≠ 0) : ¬atFirst (grid0.coords t) ∧ atEven (grid0.coords t) ∧ ¬atOdd (grid0.coords t) ∧ ¬atLast (grid0.coords t) :=
  ⟨fun h => hz ((atFirst_iff t).mp h), (atEven_iff t).mpr he, fun h => by have := (atOdd_iff t).mp h; omega,
    fun h => by have := (atLast_iff t).mp h; omega⟩
theorem kind_odd (t : Fin cfg0.N) (he : ¬t.val % 2 = 0) (hl : ¬t.val = 15) : ¬atFirst (grid0.coords t) ∧ ¬atEven (grid0.coords t) ∧ atOdd (grid0.coords t) ∧ ¬atLast (grid0.coords t) :=
  ⟨fun h => he (by have := (atFirst_iff t).mp h; omega), fun h => he ((atEven_iff t).mp h), (atOdd_iff t).mpr (by omega),
    fun h => hl ((atLast_iff t).mp h)⟩
theorem kind_last (t : Fin cfg0.N) (he : ¬t.val % 2 = 0) (hl : t.val = 15) : ¬atFirst (grid0.coords t) ∧ ¬atEven (grid0.coords t) ∧ atOdd (grid0.coords t) ∧ atLast (grid0.coords t) :=
  ⟨fun h => he (by have := (atFirst_iff t).mp h; omega), fun h => he ((atEven_iff t).mp h), (atOdd_iff t).mpr (by omega),
    (atLast_iff t).mpr hl⟩

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

theorem live6 : ∀ t : Fin cfg0.N, cfg0.idle 6 (grid0.coords t) = false := by decide +kernel

abbrev sm0 (t : Fin cfg0.N) : Memref sig .tc .vmem S16x8192 .f32 := win0_0.stage (cfg0.slots t 0)
abbrev sw0 (t : Fin cfg0.N) : (sm0 t).IsWhole := hstage0_0 ((cfg0.slots t 0).cast nbuf0_0)
abbrev sm1 (t : Fin cfg0.N) : Memref sig .tc .vmem S8192x128 .f32 := win0_1.stage (cfg0.slots t 1)
abbrev sw1 (t : Fin cfg0.N) : (sm1 t).IsWhole := hstage0_1 ((cfg0.slots t 1).cast nbuf0_1)
abbrev sm2 (t : Fin cfg0.N) : Memref sig .tc .vmem S64x128 .f32 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x64 .f32 := win0_3.stage (cfg0.slots t 3)
abbrev sw3 (t : Fin cfg0.N) : (sm3 t).IsWhole := hstage0_3 ((cfg0.slots t 3).cast nbuf0_3)
abbrev sm4 (t : Fin cfg0.N) : Memref sig .tc .vmem S64x128 .f32 := win0_4.stage (cfg0.slots t 4)
abbrev sw4 (t : Fin cfg0.N) : (sm4 t).IsWhole := hstage0_4 ((cfg0.slots t 4).cast nbuf0_4)
abbrev sm5 (t : Fin cfg0.N) : Memref sig .tc .vmem S64x1 .f32 := win0_5.stage (cfg0.slots t 5)
abbrev sw5 (t : Fin cfg0.N) : (sm5 t).IsWhole := hstage0_5 ((cfg0.slots t 5).cast nbuf0_5)
abbrev sm6 (t : Fin cfg0.N) : Memref sig .tc .vmem S16x8192 .f32 := win0_6.stage (cfg0.slots t 6)
abbrev sw6 (t : Fin cfg0.N) : (sm6 t).IsWhole := hstage0_6 ((cfg0.slots t 6).cast nbuf0_6)

abbrev ktM : Memref sig .tc .vmem S64x8192 .bf16 := Memref.whole cc0_scratch0
abbrev paM : Memref sig .tc .vmem S512x8192 .bf16 := Memref.whole cc0_scratch1
abbrev pbM : Memref sig .tc .vmem S512x8192 .bf16 := Memref.whole cc0_scratch2
abbrev waM : Memref sig .tc .vmem S16x512 .bf16 := Memref.whole cc0_scratch3
abbrev wbM : Memref sig .tc .vmem S16x512 .bf16 := Memref.whole cc0_scratch4

theorem phiA_eq (c : Dev nD) :
    (Pipeline.ΦA spec0 c : sProp 𝕄)
      = iprop(iprop((∃ d, owns (c : Thread nD τ) ktM fullShare d) ∗ (∃ d, owns (c : Thread nD τ) paM fullShare d) ∗ (∃ d, owns (c : Thread nD τ) pbM fullShare d) ∗ (∃ d, owns (c : Thread nD τ) waM fullShare d) ∗ (∃ d, owns (c : Thread nD τ) wbM fullShare d)) ∗ (∃ r, prngReg c r)) := by
  unfold Pipeline.ΦA; rw [scopedRest0_eq]; simp only [ktM, paM, pbM, waM, wbM, owns_whole]; try rfl

end Cert.Kernel.Body

end
-- ==== Proof.BodyW.RunFirst.lean ====
/- The body run at the first point, with the pieces it stores left to be read off. -/
import proofs.«119842_g5935644803188_cont_9to1c4b_610_16_alg».proof.Proof.BodyW.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : atFirst i) (hc1 : atEven i) (hc2 : ¬atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32)  :
    Σ' (LO : List (View.Piece (Elt F) S16x8192 .f32)) (LKT : List (View.Piece (Elt F) S64x8192 .bf16)) (LPA : List (View.Piece (Elt F) S512x8192 .bf16)) (LPB : List (View.Piece (Elt F) S512x8192 .bf16)) (LWA : List (View.Piece (Elt F) S16x512 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LKT) ∗ (∃ f, arg9.view.loc (c : Thread nD τ) ↦[arg9.view.set]{fullShare} arg9.view.writes (Elt F) f LPA) ∗ (∃ f, arg10.view.loc (c : Thread nD τ) ↦[arg10.view.set]{fullShare} arg10.view.writes (Elt F) f LPB) ∗ (∃ f, arg11.view.loc (c : Thread nD τ) ↦[arg11.view.set]{fullShare} arg11.view.writes (Elt F) f LWA) ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, B7⟩, ⟨%d8, %g8, -, B8⟩, ⟨%d9, %g9, -, B9⟩, ⟨%d10, %g10, -, B10⟩, ⟨%d11, %g11, -, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; iexact B8
    isplitl [B9]
    · iexists _; iexact B9
    isplitl [B10]
    · iexists _; iexact B10
    isplitl [B11]
    · iexists _; iexact B11
    iexists _; iexact B12

end Cert.Kernel.Body

end
-- ==== Proof.BodyW.RunEven.lean ====
/- The body run at an even point after the first, with the pieces it stores left to be read off. -/
import proofs.«119842_g5935644803188_cont_9to1c4b_610_16_alg».proof.Proof.BodyW.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runEven (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : atEven i) (hc2 : ¬atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpb : Vec F S512x8192 .bf16) (xwb : Vec F S16x512 .bf16) :
    Σ' (LO : List (View.Piece (Elt F) S16x8192 .f32)) (LPA : List (View.Piece (Elt F) S512x8192 .bf16)) (LWA : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ (∃ d, owns (c : Thread nD τ) arg9 fullShare d) ∗ owns (c : Thread nD τ) arg10 fullShare xpb ∗ (∃ d, owns (c : Thread nD τ) arg11 fullShare d) ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ (∃ f, arg9.view.loc (c : Thread nD τ) ↦[arg9.view.set]{fullShare} arg9.view.writes (Elt F) f LPA) ∗ owns (c : Thread nD τ) arg10 fullShare xpb ∗ (∃ f, arg11.view.loc (c : Thread nD τ) ↦[arg11.view.set]{fullShare} arg11.view.writes (Elt F) f LWA) ∗ owns (c : Thread nD τ) arg12 fullShare xwb) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%d9, %g9, -, B9⟩, ⟨%g10, %hg10, B10⟩, ⟨%d11, %g11, -, B11⟩, ⟨%g12, %hg12, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg10.eq_unread hg10; obtain rfl := harg12.eq_unread hg12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; iexact B9
    isplitl [B10]
    · iexists _; isplitr; · ipureintro; exact harg10.read_unread _
      iexact B10
    isplitl [B11]
    · iexists _; iexact B11
    iexists _; isplitr; · ipureintro; exact harg12.read_unread _
    iexact B12

end Cert.Kernel.Body

end
-- ==== Proof.BodyW.RunOdd.lean ====
/- The body run at an odd point before the last, with the pieces it stores left to be read off. -/
import proofs.«119842_g5935644803188_cont_9to1c4b_610_16_alg».proof.Proof.BodyW.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runOdd (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : ¬atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpa : Vec F S512x8192 .bf16) (xwa : Vec F S16x512 .bf16) :
    Σ' (LO : List (View.Piece (Elt F) S16x8192 .f32)) (LPB : List (View.Piece (Elt F) S512x8192 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ owns (c : Thread nD τ) arg9 fullShare xpa ∗ (∃ d, owns (c : Thread nD τ) arg10 fullShare d) ∗ owns (c : Thread nD τ) arg11 fullShare xwa ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ owns (c : Thread nD τ) arg9 fullShare xpa ∗ (∃ f, arg10.view.loc (c : Thread nD τ) ↦[arg10.view.set]{fullShare} arg10.view.writes (Elt F) f LPB) ∗ owns (c : Thread nD τ) arg11 fullShare xwa ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%g9, %hg9, B9⟩, ⟨%d10, %g10, -, B10⟩, ⟨%g11, %hg11, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg9.eq_unread hg9; obtain rfl := harg11.eq_unread hg11
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; isplitr; · ipureintro; exact harg9.read_unread _
      iexact B9
    isplitl [B10]
    · iexists _; iexact B10
    isplitl [B11]
    · iexists _; isplitr; · ipureintro; exact harg11.read_unread _
      iexact B11
    iexists _; iexact B12

end Cert.Kernel.Body

end
-- ==== Proof.BodyW.RunLast.lean ====
/- The body run at the last point, with the pieces it stores left to be read off. -/
import proofs.«119842_g5935644803188_cont_9to1c4b_610_16_alg».proof.Proof.BodyW.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : atLast i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xkt : Vec F S64x8192 .bf16) (xpa : Vec F S512x8192 .bf16) (xwa : Vec F S16x512 .bf16) :
    Σ' (LO : List (View.Piece (Elt F) S16x8192 .f32)) (LPB : List (View.Piece (Elt F) S512x8192 .bf16)) (LWB : List (View.Piece (Elt F) S16x512 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xkt ∗ owns (c : Thread nD τ) arg9 fullShare xpa ∗ (∃ d, owns (c : Thread nD τ) arg10 fullShare d) ∗ owns (c : Thread nD τ) arg11 fullShare xwa ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xkt ∗ owns (c : Thread nD τ) arg9 fullShare xpa ∗ (∃ f, arg10.view.loc (c : Thread nD τ) ↦[arg10.view.set]{fullShare} arg10.view.writes (Elt F) f LPB) ∗ owns (c : Thread nD τ) arg11 fullShare xwa ∗ (∃ f, arg12.view.loc (c : Thread nD τ) ↦[arg12.view.set]{fullShare} arg12.view.writes (Elt F) f LWB)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g7, %hg7, B7⟩, ⟨%g8, %hg8, B8⟩, ⟨%g9, %hg9, B9⟩, ⟨%d10, %g10, -, B10⟩, ⟨%g11, %hg11, B11⟩, ⟨%d12, %g12, -, B12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hg7; obtain rfl := harg8.eq_unread hg8; obtain rfl := harg9.eq_unread hg9; obtain rfl := harg11.eq_unread hg11
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [B7]
    · iexists _; iexact B7
    isplitl [B8]
    · iexists _; isplitr; · ipureintro; exact harg8.read_unread _
      iexact B8
    isplitl [B9]
    · iexists _; isplitr; · ipureintro; exact harg9.read_unread _
      iexact B9
    isplitl [B10]
    · iexists _; iexact B10
    isplitl [B11]
    · iexists _; isplitr; · ipureintro; exact harg11.read_unread _
      iexact B11
    iexists _; iexact B12

end Cert.Kernel.Body

end
-- ==== Proof.BodyW.State.lean ====
/- The six stored arrays after each point, as a recursion over the points. -/
import proofs.«119842_g5935644803188_cont_9to1c4b_610_16_alg».proof.Proof.BodyW.RunFirst
import proofs.«119842_g5935644803188_cont_9to1c4b_610_16_alg».proof.Proof.BodyW.RunEven
import proofs.«119842_g5935644803188_cont_9to1c4b_610_16_alg».proof.Proof.BodyW.RunOdd
import proofs.«119842_g5935644803188_cont_9to1c4b_610_16_alg».proof.Proof.BodyW.RunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

structure St (F : FTy → Type) [FloatOps F] where
  out : Vec F S16x8192 .f32
  kt : Vec F S64x8192 .bf16
  pa : Vec F S512x8192 .bf16
  pb : Vec F S512x8192 .bf16
  wa : Vec F S16x512 .bf16
  wb : Vec F S16x512 .bf16

def rd {S : Shape} {e : EltTy} (M : Memref sig .tc .vmem S e) (L : List (View.Piece (Elt F) S e)) : Vec F S e :=
  M.view.read (Elt F) (M.view.writes (Elt F) M.view.junk L)

def stFirst (c : Dev nD) (t : Fin cfg0.N) (h0 : atFirst (grid0.coords t)) (h1 : atEven (grid0.coords t)) (h2 : ¬atOdd (grid0.coords t)) (h3 : ¬atLast (grid0.coords t)) : St F :=
  let R := runFirst c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t)
  ⟨rd (sm6 t) R.1, rd ktM R.2.1, rd paM R.2.2.1, rd pbM R.2.2.2.1, rd waM R.2.2.2.2.1, rd wbM R.2.2.2.2.2.1⟩

def stEven (c : Dev nD) (t : Fin cfg0.N) (h0 : ¬atFirst (grid0.coords t)) (h1 : atEven (grid0.coords t)) (h2 : ¬atOdd (grid0.coords t)) (h3 : ¬atLast (grid0.coords t)) (s : St F) : St F :=
  let R := runEven c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pb s.wb
  ⟨rd (sm6 t) R.1, s.kt, rd paM R.2.1, s.pb, rd waM R.2.2.1, s.wb⟩

def stOdd (c : Dev nD) (t : Fin cfg0.N) (h0 : ¬atFirst (grid0.coords t)) (h1 : ¬atEven (grid0.coords t)) (h2 : atOdd (grid0.coords t)) (h3 : ¬atLast (grid0.coords t)) (s : St F) : St F :=
  let R := runOdd c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pa s.wa
  ⟨rd (sm6 t) R.1, s.kt, s.pa, rd pbM R.2.1, s.wa, rd wbM R.2.2.1⟩

def stLast (c : Dev nD) (t : Fin cfg0.N) (h0 : ¬atFirst (grid0.coords t)) (h1 : ¬atEven (grid0.coords t)) (h2 : atOdd (grid0.coords t)) (h3 : atLast (grid0.coords t)) (s : St F) : St F :=
  let R := runLast c (grid0.coords t) (sm0 t) (sw0 t) (sm1 t) (sw1 t) (sm2 t) (sw2 t) (sm3 t) (sw3 t) (sm4 t) (sw4 t) (sm5 t) (sw5 t) (sm6 t) (sw6 t) ktM (Memref.isWhole_whole _) paM (Memref.isWhole_whole _) pbM (Memref.isWhole_whole _) waM (Memref.isWhole_whole _) wbM (Memref.isWhole_whole _) h0 h1 h2 h3 (iblk m c 0 t) (iblk m c 1 t) (iblk m c 2 t) (iblk m c 3 t) (iblk m c 4 t) (iblk m c 5 t) s.out s.kt s.pa s.wa
  ⟨rd (sm6 t) R.1, s.kt, s.pa, rd pbM R.2.1, s.wa, rd wbM R.2.2.1⟩

theorem N16 : cfg0.N = 16 := N_0

def stAt (c : Dev nD) : (n : ℕ) → n < cfg0.N → St F
  | 0, hn => stFirst m c ⟨0, hn⟩ (kind_first ⟨0, hn⟩ rfl).1 (kind_first ⟨0, hn⟩ rfl).2.1 (kind_first ⟨0, hn⟩ rfl).2.2.1 (kind_first ⟨0, hn⟩ rfl).2.2.2
  | n + 1, hn =>
    if he : (n + 1) % 2 = 0 then
      stEven m c ⟨n + 1, hn⟩ (kind_even ⟨n + 1, hn⟩ he (Nat.succ_ne_zero n)).1 (kind_even ⟨n + 1, hn⟩ he (Nat.succ_ne_zero n)).2.1 (kind_even ⟨n + 1, hn⟩ he (Nat.succ_ne_zero n)).2.2.1 (kind_even ⟨n + 1, hn⟩ he (Nat.succ_ne_zero n)).2.2.2 (stAt c n (Nat.lt_of_succ_lt hn))
    else if hl : n + 1 = 15 then
      stLast m c ⟨n + 1, hn⟩ (kind_last ⟨n + 1, hn⟩ he hl).1 (kind_last ⟨n + 1, hn⟩ he hl).2.1 (kind_last ⟨n + 1, hn⟩ he hl).2.2.1 (kind_last ⟨n + 1, hn⟩ he hl).2.2.2 (stAt c n (Nat.lt_of_succ_lt hn))
    else
      stOdd m c ⟨n + 1, hn⟩ (kind_odd ⟨n + 1, hn⟩ he hl).1 (kind_odd ⟨n + 1, hn⟩ he hl).2.1 (kind_odd ⟨n + 1, hn⟩ he hl).2.2.1 (kind_odd ⟨n + 1, hn⟩ he hl).2.2.2 (stAt c n (Nat.lt_of_succ_lt hn))

theorem stAt_first (c : Dev nD) (t : Fin cfg0.N) (hz : t.val = 0) (h0 : atFirst (grid0.coords t)) (h1 : atEven (grid0.coords t)) (h2 : ¬atOdd (grid0.coords t)) (h3 : ¬atLast (grid0.coords t)) :
    stAt m c t.val t.isLt = stFirst m c t h0 h1 h2 h3 := by
  obtain ⟨n, hn⟩ := t
  cases n with
  | zero => rfl
  | succ n => exact absurd hz (Nat.succ_ne_zero n)

theorem stAt_even (c : Dev nD) (t : Fin cfg0.N) (he : t.val % 2 = 0) (hz : t.val ≠ 0) (h0 : ¬atFirst (grid0.coords t)) (h1 : atEven (grid0.coords t)) (h2 : ¬atOdd (grid0.coords t)) (h3 : ¬atLast (grid0.coords t)) :
    stAt m c t.val t.isLt = stEven m c t h0 h1 h2 h3 (stAt m c (t.val - 1) (Nat.lt_of_le_of_lt (Nat.sub_le _ _) t.isLt)) := by
  obtain ⟨n, hn⟩ := t
  cases n with
  | zero => exact absurd rfl hz
  | succ n => exact (dif_pos he).trans rfl

theorem stAt_odd (c : Dev nD) (t : Fin cfg0.N) (he : ¬t.val % 2 = 0) (hl : ¬t.val = 15) (h0 : ¬atFirst (grid0.coords t)) (h1 : ¬atEven (grid0.coords t)) (h2 : atOdd (grid0.coords t)) (h3 : ¬atLast (grid0.coords t)) :
    stAt m c t.val t.isLt = stOdd m c t h0 h1 h2 h3 (stAt m c (t.val - 1) (Nat.lt_of_le_of_lt (Nat.sub_le _ _) t.isLt)) := by
  obtain ⟨n, hn⟩ := t
  cases n with
  | zero => exact absurd (Nat.zero_mod 2) he
  | succ n => exact (dif_neg he).trans ((dif_neg hl).trans rfl)

theorem stAt_last (c : Dev nD) (t : Fin cfg0.N) (he : ¬t.val % 2 = 0) (hl : t.val = 15) (h0 : ¬atFirst (grid0.coords t)) (h1 : ¬atEven (grid0.coords t)) (h2 : atOdd (grid0.coords t)) (h3 : atLast (grid0.coords t)) :
    stAt m c t.val t.isLt = stLast m c t h0 h1 h2 h3 (stAt m c (t.val - 1) (Nat.lt_of_le_of_lt (Nat.sub_le _ _) t.isLt)) := by
  obtain ⟨n, hn⟩ := t
  cases n with
  | zero => exact absurd (Nat.zero_mod 2) he
  | succ n => exact (dif_neg he).trans ((dif_pos hl).trans rfl)

end Cert.Kernel.Body

end
-- ==== Proof.BodyW.Data.lean ====
/- The invariant between points, the body's obligation at each kind of point, and the frame. -/
import proofs.«119842_g5935644803188_cont_9to1c4b_610_16_alg».proof.Proof.BodyW.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem owns_rd (c : Dev nD) {S : Shape} {e : EltTy} (M : Memref sig .tc .vmem S e) (L : List (View.Piece (Elt F) S e))
    (hcov : ∀ y, ∃ p ∈ L, y ∈ p.1.set) (f : BufTy.Contents (Elt F) M.view.ty) :
    (iprop(M.view.loc (c : Thread nD τ) ↦[M.view.set]{fullShare} M.view.writes (Elt F) f L) : sProp 𝕄)
      ⊢ owns (c : Thread nD τ) M fullShare (rd M L) := by
  unfold owns
  iintro H
  iexists _; isplitr
  swap; · iexact H
  ipureintro; exact View.read_writes_of_cover _ _ _ _ _ hcov

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) ktM fullShare (stAt m c n hn).kt ∗ owns (c : Thread nD τ) paM fullShare (stAt m c n hn).pa ∗ owns (c : Thread nD τ) pbM fullShare (stAt m c n hn).pb ∗ owns (c : Thread nD τ) waM fullShare (stAt m c n hn).wa ∗ owns (c : Thread nD τ) wbM fullShare (stAt m c n hn).wb) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) ktM fullShare (stAt m c n hn).kt ∗ owns (c : Thread nD τ) paM fullShare (stAt m c n hn).pa ∗ owns (c : Thread nD τ) pbM fullShare (stAt m c n hn).pb ∗ owns (c : Thread nD τ) waM fullShare (stAt m c n hn).wa ∗ owns (c : Thread nD τ) wbM fullShare (stAt m c n hn).wb) ∗ (∃ r, prngReg c r)) := rfl

theorem PhiS_pos (c : Dev nD) (n : ℕ) (h : n ≤ cfg0.N) (hz : n ≠ 0) :
    PhiS m c n h = iprop(iprop(owns (c : Thread nD τ) ktM fullShare (stAt m c (n - 1) (by omega)).kt ∗ owns (c : Thread nD τ) paM fullShare (stAt m c (n - 1) (by omega)).pa ∗ owns (c : Thread nD τ) pbM fullShare (stAt m c (n - 1) (by omega)).pb ∗ owns (c : Thread nD τ) waM fullShare (stAt m c (n - 1) (by omega)).wa ∗ owns (c : Thread nD τ) wbM fullShare (stAt m c (n - 1) (by omega)).wb) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t.val t.isLt).out := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem live6_all : ∀ i : cfg0.grid.Coords, cfg0.idle 6 i = false := by decide +kernel

theorem before_6 (c : Dev nD) (t : Fin cfg0.N) (hz : t.val ≠ 0) (d) :
    (dats m 0 c).before 6 t d = (stAt m c (t.val - 1) (Nat.lt_of_le_of_lt (Nat.sub_le _ _) t.isLt)).out := by
  have hN : t.val < 16 := lt_of_lt_of_eq t.isLt N16
  rw [(dats m 0 c).before_out_kept 6 rfl t hz
    (by cases hfl : (cfg0.win 6).flush ⟨t.val - 1, Nat.lt_of_le_of_lt (Nat.sub_le _ _) t.isLt⟩ with
        | false => rfl
        | true => exact absurd ((flush0_6 _).mp hfl) (by (try dsimp only); omega))
    live6_all (fun _ _ => rfl) d, after_6]

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem bodyPost_eq (c : Dev nD) (t : Fin cfg0.N) :
    bodyPost m c t = iprop(PhiS m c (t.val + 1) t.isLt ∗ (dats m 0 c).owesAt () t.castSucc
      ∗ owns (c : Thread nD τ) (sm0 t) fullShare (iblk m c 0 t) ∗ owns (c : Thread nD τ) (sm1 t) fullShare (iblk m c 1 t)
      ∗ owns (c : Thread nD τ) (sm2 t) fullShare (iblk m c 2 t) ∗ owns (c : Thread nD τ) (sm3 t) fullShare (iblk m c 3 t)
      ∗ owns (c : Thread nD τ) (sm4 t) fullShare (iblk m c 4 t) ∗ owns (c : Thread nD τ) (sm5 t) fullShare (iblk m c 5 t)
      ∗ owns (c : Thread nD τ) (sm6 t) fullShare (stAt m c t.val t.isLt).out) := by
  unfold bodyPost
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (sm0 t) fullShare ((dats m 0 c).after 0 t) from by
    unfold Dat.leavesExact; rw [live0 t], after_0]
  rw [show (dats m 0 c).leavesExact 1 t = owns (c : Thread nD τ) (sm1 t) fullShare ((dats m 0 c).after 1 t) from by
    unfold Dat.leavesExact; rw [live1 t], after_1]
  rw [show (dats m 0 c).leavesExact 2 t = owns (c : Thread nD τ) (sm2 t) fullShare ((dats m 0 c).after 2 t) from by
    unfold Dat.leavesExact; rw [live2 t], after_2]
  rw [show (dats m 0 c).leavesExact 3 t = owns (c : Thread nD τ) (sm3 t) fullShare ((dats m 0 c).after 3 t) from by
    unfold Dat.leavesExact; rw [live3 t], after_3]
  rw [show (dats m 0 c).leavesExact 4 t = owns (c : Thread nD τ) (sm4 t) fullShare ((dats m 0 c).after 4 t) from by
    unfold Dat.leavesExact; rw [live4 t], after_4]
  rw [show (dats m 0 c).leavesExact 5 t = owns (c : Thread nD τ) (sm5 t) fullShare ((dats m 0 c).after 5 t) from by
    unfold Dat.leavesExact; rw [live5 t], after_5]
  rw [show (dats m 0 c).leavesExact 6 t = owns (c : Thread nD τ) (sm6 t) fullShare ((dats m 0 c).after 6 t) from by
    unfold Dat.leavesExact; rw [live6 t], after_6]

set_option maxHeartbeats 4000000 in
theorem sound_first (c : Dev nD) (t : Fin cfg0.N) (hz : t.val = 0) :
    bodyPre m c t ⊢ wp frame (wpE (defs₀ (F := F)) Variants.none c none) Set.univ (bodyAt0 t) (fun _ => bodyPost m c t) := by
  obtain ⟨h0, h1, h2, h3⟩ := kind_first t hz
  unfold bodyPre bodyAt0
  rw [bodyPost_eq, PhiS_succ]
  simp only [before_0, before_1, before_2, before_3, before_4, before_5]
  rw [PhiS_castSucc m c t, PhiS_zero m c _ _ hz, phiA_eq]
  rw [stAt_first m c t hz h0 h1 h2 h3]

  unfold stFirst; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t)).2.2.2.2.2.2 Set.univ _)
  iframe H0 H1 H2 H3 H4 H5 HS0 HS1 HS2 HS3 HS4
  isplitl [H6]; · iexists _; iexact H6
  iintro ⟨H0, H1, H2, H3, H4, H5, ⟨%e7, H6⟩, ⟨%e8, HS0⟩, ⟨%e9, HS1⟩, ⟨%e10, HS2⟩, ⟨%e11, HS3⟩, ⟨%e12, HS4⟩⟩
  isplitl [HS0 HS1 HS2 HS3 HS4 Hg]
  · isplitl [HS0 HS1 HS2 HS3 HS4]
    ·
      isplitl [HS0]
      · iapply owns_rd c _ _ (View.cover_of_tiledL (s := S64x8192) _ S64x8192.size (by sl_kernel_rfl)) _; iexact HS0
      isplitl [HS1]
      · iapply owns_rd c _ _ (View.cover_of_tiledL (s := S512x8192) _ S512x1024.size (by sl_kernel_rfl)) _; iexact HS1
      isplitl [HS2]
      · iapply owns_rd c _ _ (View.cover_of_tiledL (s := S512x8192) _ S512x8192.size (by sl_kernel_rfl)) _; iexact HS2
      isplitl [HS3]
      · iapply owns_rd c _ _ (View.cover_of_tiledL (s := S16x512) _ S16x512.size (by sl_kernel_rfl)) _; iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_even (c : Dev nD) (t : Fin cfg0.N) (he : t.val % 2 = 0) (hz : t.val ≠ 0) :
    bodyPre m c t ⊢ wp frame (wpE (defs₀ (F := F)) Variants.none c none) Set.univ (bodyAt0 t) (fun _ => bodyPost m c t) := by
  obtain ⟨h0, h1, h2, h3⟩ := kind_even t he hz
  unfold bodyPre bodyAt0
  rw [bodyPost_eq, PhiS_succ]
  simp only [before_0, before_1, before_2, before_3, before_4, before_5, before_6 m c t hz]
  rw [PhiS_castSucc m c t, PhiS_pos m c _ _ hz]
  rw [stAt_even m c t he hz h0 h1 h2 h3]
  generalize stAt m c (t.val - 1) _ = s
  unfold stEven; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runEven c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pb s.wb).2.2.2 Set.univ _)
  iframe H0 H1 H2 H3 H4 H5 H6 HS0 HS2 HS4
  isplitl [HS1]; · iexists _; iexact HS1
  isplitl [HS3]; · iexists _; iexact HS3
  iintro ⟨H0, H1, H2, H3, H4, H5, ⟨%e7, H6⟩, HS0, ⟨%e9, HS1⟩, HS2, ⟨%e11, HS3⟩, HS4⟩
  isplitl [HS0 HS1 HS2 HS3 HS4 Hg]
  · isplitl [HS0 HS1 HS2 HS3 HS4]
    ·
      isplitl [HS0]
      · iexact HS0
      isplitl [HS1]
      · iapply owns_rd c _ _ (View.cover_of_tiledL (s := S512x8192) _ S512x1024.size (by sl_kernel_rfl)) _; iexact HS1
      isplitl [HS2]
      · iexact HS2
      isplitl [HS3]
      · iapply owns_rd c _ _ (View.cover_of_tiledL (s := S16x512) _ S16x512.size (by sl_kernel_rfl)) _; iexact HS3
      iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_odd (c : Dev nD) (t : Fin cfg0.N) (he : ¬t.val % 2 = 0) (hl : ¬t.val = 15) :
    bodyPre m c t ⊢ wp frame (wpE (defs₀ (F := F)) Variants.none c none) Set.univ (bodyAt0 t) (fun _ => bodyPost m c t) := by
  have hz : t.val ≠ 0 := fun h => he (by omega)
  obtain ⟨h0, h1, h2, h3⟩ := kind_odd t he hl
  unfold bodyPre bodyAt0
  rw [bodyPost_eq, PhiS_succ]
  simp only [before_0, before_1, before_2, before_3, before_4, before_5, before_6 m c t hz]
  rw [PhiS_castSucc m c t, PhiS_pos m c _ _ hz]
  rw [stAt_odd m c t he hl h0 h1 h2 h3]
  generalize stAt m c (t.val - 1) _ = s
  unfold stOdd; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runOdd c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pa s.wa).2.2.2 Set.univ _)
  iframe H0 H1 H2 H3 H4 H5 H6 HS0 HS1 HS3
  isplitl [HS2]; · iexists _; iexact HS2
  isplitl [HS4]; · iexists _; iexact HS4
  iintro ⟨H0, H1, H2, H3, H4, H5, ⟨%e7, H6⟩, HS0, HS1, ⟨%e10, HS2⟩, HS3, ⟨%e12, HS4⟩⟩
  isplitl [HS0 HS1 HS2 HS3 HS4 Hg]
  · isplitl [HS0 HS1 HS2 HS3 HS4]
    ·
      isplitl [HS0]
      · iexact HS0
      isplitl [HS1]
      · iexact HS1
      isplitl [HS2]
      · iapply owns_rd c _ _ (View.cover_of_tiledL (s := S512x8192) _ S512x1024.size (by sl_kernel_rfl)) _; iexact HS2
      isplitl [HS3]
      · iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

set_option maxHeartbeats 4000000 in
theorem sound_last (c : Dev nD) (t : Fin cfg0.N) (he : ¬t.val % 2 = 0) (hl : t.val = 15) :
    bodyPre m c t ⊢ wp frame (wpE (defs₀ (F := F)) Variants.none c none) Set.univ (bodyAt0 t) (fun _ => bodyPost m c t) := by
  have hz : t.val ≠ 0 := fun h => he (by omega)
  obtain ⟨h0, h1, h2, h3⟩ := kind_last t he hl
  unfold bodyPre bodyAt0
  rw [bodyPost_eq, PhiS_succ]
  simp only [before_0, before_1, before_2, before_3, before_4, before_5, before_6 m c t hz]
  rw [PhiS_castSucc m c t, PhiS_pos m c _ _ hz]
  rw [stAt_last m c t he hl h0 h1 h2 h3]
  generalize stAt m c (t.val - 1) _ = s
  unfold stLast; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runLast c (grid0.coords t) _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) s.out s.kt s.pa s.wa).2.2.2 Set.univ _)
  iframe H0 H1 H2 H3 H4 H5 H6 HS0 HS1 HS3
  isplitl [HS2]; · iexists _; iexact HS2
  isplitl [HS4]; · iexists _; iexact HS4
  iintro ⟨H0, H1, H2, H3, H4, H5, ⟨%e7, H6⟩, HS0, HS1, ⟨%e10, HS2⟩, HS3, ⟨%e12, HS4⟩⟩
  isplitl [HS0 HS1 HS2 HS3 HS4 Hg]
  · isplitl [HS0 HS1 HS2 HS3 HS4]
    ·
      isplitl [HS0]
      · iexact HS0
      isplitl [HS1]
      · iexact HS1
      isplitl [HS2]
      · iapply owns_rd c _ _ (View.cover_of_tiledL (s := S512x8192) _ S512x1024.size (by sl_kernel_rfl)) _; iexact HS2
      isplitl [HS3]
      · iexact HS3
      iapply owns_rd c _ _ (View.cover_of_tiledL (s := S16x512) _ S16x512.size (by sl_kernel_rfl)) _; iexact HS4
    iexact Hg
  iframe Ho H0 H1 H2 H3 H4 H5
  iapply owns_rd c _ _ (View.cover_of_tiledL (s := S16x8192) _ S16x1024.size (by sl_kernel_rfl)) _; iexact H6

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  by_cases he : t.val % 2 = 0
  · exact sound_even m c t he hz
  by_cases hl : t.val = 15
  · exact sound_last m c t he hl
  · exact sound_odd m c t he hl

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N16; omega
  rw [show (dats m 0 c).Φ (Fin.last cfg0.N) = PhiS m c (Fin.last cfg0.N).val (Nat.le_of_lt_succ (Fin.last cfg0.N).isLt) from rfl, PhiS_pos m c _ _ ht, phiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Spec.lean ====
/- The transition's quantities over coordinate functions on the extended reals, grouped slab by slab and with a row shift. -/
import Idealize.ShloMosaic.PureOps.Ideal
import Idealize.ShloMosaic.Lib.ValueIdx

noncomputable section

open scoped BigOperators

namespace Cert.Spec

open Idealize.ShloMosaic

def slabIdx (s : Fin 16) (r : Fin 512) : Fin 8192 := ⟨512 * s.val + r.val, by omega⟩

def chunkIdx (k : Fin 8) (l : Fin 1024) : Fin 8192 := ⟨1024 * k.val + l.val, by omega⟩

section
variable (bel : Fin 16 → Fin 8192 → EReal) (emb : Fin 8192 → Fin 128 → EReal)
  (wq : Fin 64 → Fin 128 → EReal) (bq : Fin 64 → EReal) (wk : Fin 64 → Fin 128 → EReal) (bk : Fin 64 → EReal)

def keyT (h : Fin 64) (s : Fin 8192) : EReal := (∑ d : Fin 128, wk h d * emb s d) + bk h

def qry (i : Fin 8192) (h : Fin 64) : EReal := (∑ d : Fin 128, emb i d * wq h d) + bq h

def logit (i j : Fin 8192) : EReal := ∑ h : Fin 64, qry emb wq bq i h * keyT emb wk bk h j

def pexp (i j : Fin 8192) : EReal := Ideal.exp (logit emb wq bq wk bk i j)

def rowsum (i : Fin 8192) : EReal := ∑ j : Fin 8192, pexp emb wq bq wk bk i j

def wgt (b : Fin 16) (i : Fin 8192) : EReal := Ideal.div (bel b i) (rowsum emb wq bq wk bk i)

def kout (b : Fin 16) (j : Fin 8192) : EReal := ∑ i : Fin 8192, wgt bel emb wq bq wk bk b i * pexp emb wq bq wk bk i j

def slabTerm (s : Fin 16) (b : Fin 16) (j : Fin 8192) : EReal :=
  ∑ r : Fin 512, wgt bel emb wq bq wk bk b (slabIdx s r) * pexp emb wq bq wk bk (slabIdx s r) j

def accOut : ℕ → Fin 16 → Fin 8192 → EReal
  | 0 => fun _ _ => 0
  | n + 1 => fun b j => accOut n b j + (if h : n < 16 then slabTerm bel emb wq bq wk bk ⟨n, h⟩ b j else 0)

def rkey (j : Fin 8192) (h : Fin 64) : EReal := (∑ d : Fin 128, emb j d * wk h d) + bk h

def rlogit (i j : Fin 8192) : EReal := ∑ h : Fin 64, qry emb wq bq i h * rkey emb wk bk j h

def rexp (mx : Fin 8192 → EReal) (i j : Fin 8192) : EReal := Ideal.exp (rlogit emb wq bq wk bk i j - mx i)

def rsum (mx : Fin 8192 → EReal) (i : Fin 8192) : EReal := ∑ j : Fin 8192, rexp emb wq bq wk bk mx i j

def rsoft (mx : Fin 8192 → EReal) (i j : Fin 8192) : EReal := Ideal.div (rexp emb wq bq wk bk mx i j) (rsum emb wq bq wk bk mx i)

def rout (mx : Fin 8192 → EReal) (b : Fin 16) (j : Fin 8192) : EReal := ∑ i : Fin 8192, bel b i * rsoft emb wq bq wk bk mx i j

def rmax (i : Fin 8192) : EReal := max ⊥ ((Finset.univ : Finset (Fin 8192)).fold max ⊥ (fun j => rlogit emb wq bq wk bk i j))

end

end Cert.Spec

end
-- ==== Proof.Val.Forms.lean ====
/- Closed forms, over coordinates, of what one point computes from the arrays it reads. -/
import proofs.«119842_g5935644803188_cont_9to1c4b_610_16_alg».proof.Proof.Spec
import proofs.«119842_g5935644803188_cont_9to1c4b_610_16_alg».proof.Proof.Gen.KernelIdeal
import Idealize.ShloMosaic.PureOps.Ideal
import Idealize.ShloMosaic.Lib.ValueIdx

noncomputable section

open scoped BigOperators

namespace Cert.KernelIdeal.Val

open Idealize.ShloMosaic Idealize.ShloMosaic.ValueIdx Cert.KernelIdeal Cert.Spec

def ktForm (x4 : Vec Ideal S64x128 .f32) (x1 : Vec Ideal S8192x128 .f32) (x5 : Vec Ideal S64x1 .f32) (h : Fin 64) (s : Fin 8192) : EReal :=
  (∑ d : Fin 128, x4 (ix2 h d) * x1 (ix2 s d)) + x5 (ix2 h 0)

def qBlk (x1 : Vec Ideal S8192x128 .f32) (x2 : Vec Ideal S64x128 .f32) (x3 : Vec Ideal S1x64 .f32) (t : Fin 16) (r : Fin 512) (h : Fin 64) : EReal :=
  (∑ d : Fin 128, x1 (ix2 (slabIdx t r) d) * x2 (ix2 h d)) + x3 (ix2 0 h)

def pBlk (x1 : Vec Ideal S8192x128 .f32) (x2 : Vec Ideal S64x128 .f32) (x3 : Vec Ideal S1x64 .f32) (kt : Vec Ideal S64x8192 .bf16)
    (t : Fin 16) (r : Fin 512) (j : Fin 8192) : EReal :=
  Ideal.exp (∑ h : Fin 64, qBlk x1 x2 x3 t r h * kt (ix2 h j))

def zBlk (x1 : Vec Ideal S8192x128 .f32) (x2 : Vec Ideal S64x128 .f32) (x3 : Vec Ideal S1x64 .f32) (kt : Vec Ideal S64x8192 .bf16)
    (t : Fin 16) (r : Fin 512) : EReal :=
  ((((((((0 : EReal) + ∑ l : Fin 1024, pBlk x1 x2 x3 kt t r (chunkIdx 0 l)) + ∑ l : Fin 1024, pBlk x1 x2 x3 kt t r (chunkIdx 1 l))
    + ∑ l : Fin 1024, pBlk x1 x2 x3 kt t r (chunkIdx 2 l)) + ∑ l : Fin 1024, pBlk x1 x2 x3 kt t r (chunkIdx 3 l))
    + ∑ l : Fin 1024, pBlk x1 x2 x3 kt t r (chunkIdx 4 l)) + ∑ l : Fin 1024, pBlk x1 x2 x3 kt t r (chunkIdx 5 l))
    + ∑ l : Fin 1024, pBlk x1 x2 x3 kt t r (chunkIdx 6 l)) + ∑ l : Fin 1024, pBlk x1 x2 x3 kt t r (chunkIdx 7 l)

def wBlk (x0 : Vec Ideal S16x8192 .f32) (x1 : Vec Ideal S8192x128 .f32) (x2 : Vec Ideal S64x128 .f32) (x3 : Vec Ideal S1x64 .f32)
    (kt : Vec Ideal S64x8192 .bf16) (t : Fin 16) (b : Fin 16) (r : Fin 512) : EReal :=
  Ideal.div (x0 (ix2 b (slabIdx t r))) (zBlk x1 x2 x3 kt t r)

def consume (o : Vec Ideal S16x8192 .f32) (w : Vec Ideal S16x512 .bf16) (p : Vec Ideal S512x8192 .bf16) (b : Fin 16) (j : Fin 8192) : EReal :=
  o (ix2 b j) + ∑ r : Fin 512, w (ix2 b r) * p (ix2 r j)

end Cert.KernelIdeal.Val

end
-- ==== Proof.Val.Common.lean ====
/- One step read at an index: the three matrix products as sums, the slab's rows and columns, the row sums chunk by chunk,
   and each stored piece against its closed form. -/
import proofs.«119842_g5935644803188_cont_9to1c4b_610_16_alg».proof.Proof.Val.Forms
import proofs.«119842_g5935644803188_cont_9to1c4b_610_16_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val.Aux

open Idealize.ShloMosaic Idealize.ShloMosaic.ValueIdx Idealize.ShloMosaic.Tactic Idealize.SL.Sem
open Cert.KernelIdeal Cert.KernelIdeal.Gen Cert.Spec

theorem query_mm (v15 : FVec Ideal S512x128 .f32) (v16 : FVec Ideal S64x128 .f32) (r : Fin 512) (h : Fin 64) :
    (matmul (F := Ideal) dot_S512x128_S64x128_S512x64_1_1_0_0_n_n none v15 v16 (constant (F := Ideal) S512x64 .f32 0x00000000#32)) (ix2 r h)
      = ∑ k : Fin 128, v15 (ix2 r k) * v16 (ix2 h k) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  generalize (contrEquiv1 dot_S512x128_S64x128_S512x64_1_1_0_0_n_n 128 rfl rfl).symm k = z at hk ⊢
  refine congrArg₂ (· * ·) (congrArg v15 (funext fun c => Fin.ext ?_)) (congrArg v16 (funext fun c => Fin.ext ?_))
  · match c with
    | ⟨0, _⟩ => rfl
    | ⟨1, _⟩ => exact (dot_S512x128_S64x128_S512x64_1_1_0_0_n_n.lhsIdx_val_of_single rfl _ z).trans hk
  · match c with
    | ⟨1, _⟩ => exact (dot_S512x128_S64x128_S512x64_1_1_0_0_n_n.rhsIdx_val_of_single rfl _ z).trans hk
    | ⟨0, _⟩ => rfl

theorem logit_mm (q : FVec Ideal S512x64 .bf16) (kc : FVec Ideal S64x1024 .bf16) (r : Fin 512) (l : Fin 1024) :
    (matmul (F := Ideal) dot_S512x64_S64x1024_S512x1024_1_0_0_1_n_n none q kc (constant (F := Ideal) S512x1024 .f32 0x00000000#32)) (ix2 r l)
      = ∑ k : Fin 64, q (ix2 r k) * kc (ix2 k l) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  generalize (contrEquiv1 dot_S512x64_S64x1024_S512x1024_1_0_0_1_n_n 64 rfl rfl).symm k = z at hk ⊢
  refine congrArg₂ (· * ·) (congrArg q (funext fun c => Fin.ext ?_)) (congrArg kc (funext fun c => Fin.ext ?_))
  · match c with
    | ⟨0, _⟩ => rfl
    | ⟨1, _⟩ => exact (dot_S512x64_S64x1024_S512x1024_1_0_0_1_n_n.lhsIdx_val_of_single rfl _ z).trans hk
  · match c with
    | ⟨0, _⟩ => exact (dot_S512x64_S64x1024_S512x1024_1_0_0_1_n_n.rhsIdx_val_of_single rfl _ z).trans hk
    | ⟨1, _⟩ => rfl

theorem out_mm (w : FVec Ideal S16x512 .bf16) (p : FVec Ideal S512x1024 .bf16) (b : Fin 16) (l : Fin 1024) :
    (matmul (F := Ideal) dot_S16x512_S512x1024_S16x1024_1_0_0_1_n_n none w p (constant (F := Ideal) S16x1024 .f32 0x00000000#32)) (ix2 b l)
      = ∑ k : Fin 512, w (ix2 b k) * p (ix2 k l) := by
  simp only [matmul]
  rw [Ideal.matmul_constant_zero_apply, ← Equiv.sum_comp (contrEquiv1 dot_S16x512_S512x1024_S16x1024_1_0_0_1_n_n 512 rfl rfl).symm]
  refine Finset.sum_congr rfl fun k _ => ?_
  have hk := contrEquiv1_symm_val dot_S16x512_S512x1024_S16x1024_1_0_0_1_n_n 512 rfl rfl k
  generalize (contrEquiv1 dot_S16x512_S512x1024_S16x1024_1_0_0_1_n_n 512 rfl rfl).symm k = z at hk ⊢
  refine congrArg₂ (· * ·) (congrArg w (funext fun c => Fin.ext ?_)) (congrArg p (funext fun c => Fin.ext ?_))
  · match c with
    | ⟨0, _⟩ => rfl
    | ⟨1, _⟩ => exact (dot_S16x512_S512x1024_S16x1024_1_0_0_1_n_n.lhsIdx_val_of_single rfl _ z).trans hk
  · match c with
    | ⟨0, _⟩ => exact (dot_S16x512_S512x1024_S16x1024_1_0_0_1_n_n.rhsIdx_val_of_single rfl _ z).trans hk
    | ⟨1, _⟩ => rfl

theorem hz2 : (![0, 0] : Fin 2 → ℕ) = fun _ => 0 := by
  funext a; match a with | ⟨0, _⟩ => rfl | ⟨1, _⟩ => rfl

theorem pay8_apply (v15 : FVec Ideal S512x128 .f32) (v16 : FVec Ideal S64x128 .f32) (v18 : FVec Ideal S1x64 .f32) (r : Fin 512) (h : Fin 64) :
    k0_pay8 (F := Ideal) v15 v16 v18 (ix2 r h) = (∑ d : Fin 128, v15 (ix2 r d) * v16 (ix2 h d)) + v18 (ix2 0 h) := by
  unfold k0_pay8
  refine congrArg₂ (· + ·) (query_mm v15 v16 r h) ?_
  refine (broadcastTo_apply _ broadcasts_S1x64_S512x64 (ix2 r h) (ix2 0 h) (fun a => match a with
    | ⟨0, _⟩ => by show 0 = if (1 : Nat) = 1 then 0 else _; rw [if_pos rfl]
    | ⟨1, _⟩ => by show h.val = if (64 : Nat) = 1 then 0 else h.val; rw [if_neg (by decide)])).trans ?_
  exact congrFun (shapeCast_self v18 shapeCasts_S1x64_S1x64) _

theorem expc_apply (q : FVec Ideal S512x64 .bf16) (kc : FVec Ideal S64x1024 .bf16) (r : Fin 512) (l : Fin 1024) :
    (exp (F := Ideal) (matmul (F := Ideal) dot_S512x64_S64x1024_S512x1024_1_0_0_1_n_n none q kc (constant (F := Ideal) S512x1024 .f32 0x00000000#32))) (ix2 r l)
      = Ideal.exp (∑ h : Fin 64, q (ix2 r h) * kc (ix2 h l)) :=
  congrArg Ideal.exp (logit_mm q kc r l)

theorem pack_apply (v : FVec Ideal S512x1024 .f32) (x : S512x1024.Idx) :
    shapeCast S512x1024 (truncf .bf16 v bitsLt_bf16_f32) shapeCasts_S512x1024_S512x1024 x = v x :=
  congrFun (shapeCast_self (truncf .bf16 v bitsLt_bf16_f32) shapeCasts_S512x1024_S512x1024) x

theorem outc_apply (v34 : FVec Ideal S16x1024 .f32) (v36 : FVec Ideal S16x512 .bf16) (v37 : FVec Ideal S512x1024 .bf16) (b : Fin 16) (l : Fin 1024) :
    (addf (shapeCast S16x1024 v34 shapeCasts_S16x1024_S16x1024)
      (matmul (F := Ideal) dot_S16x512_S512x1024_S16x1024_1_0_0_1_n_n none v36 v37 (constant (F := Ideal) S16x1024 .f32 0x00000000#32))) (ix2 b l)
      = v34 (ix2 b l) + ∑ r : Fin 512, v36 (ix2 b r) * v37 (ix2 r l) :=
  congrArg₂ (· + ·) (congrFun (shapeCast_self v34 shapeCasts_S16x1024_S16x1024) _) (out_mm v36 v37 b l)

theorem lift_row (r : Fin 512) (k : Fin (S512x1024.size 1)) :
    reduces_S512x1024_S512.lift (ix1 r) k = ix2 r (⟨k.val, k.isLt⟩ : Fin 1024) := by
  funext c; apply Fin.ext
  match c with
  | ⟨0, _⟩ => rfl
  | ⟨1, _⟩ => rfl

theorem rs_step (acc : FVec Ideal S512x1 .f32) (e : FVec Ideal S512x1024 .f32) (r : Fin 512) :
    (addf acc (shapeCast S512x1 (multiReduction (F := Ideal) .add [1] S512 e 0x00000000#32 reduces_S512x1024_S512 (.inl rfl) rfl) shapeCasts_S512_S512x1)) (ix2 r 0)
      = acc (ix2 r 0) + ∑ l : Fin 1024, e (ix2 r l) := by
  refine congrArg (acc (ix2 r 0) + ·) ?_
  refine (shapeCast_apply _ shapeCasts_S512_S512x1 (ix2 r 0) (ix1 r) (by
    rw [Shape.rowMajor_val_one, Shape.rowMajor_val_two]; show r.val = r.val * 1 + 0; omega)).trans ?_
  refine (Ideal.multiReduction_add_single e 0x00000000#32 reduces_S512x1024_S512 _ _ (ix1 r)).trans ?_
  exact Finset.sum_congr rfl fun k _ => congrArg e (lift_row r k)

theorem slab_off : ∀ t : Fin 16, (Scalar.indexCast (Scalar.muli (BitVec.ofNat 32 t.val) 512#32)).toNat = 512 * t.val := by decide

theorem off1_0 (i : grid0.Coords) (t : Fin 16) (ht : (i 0).val = t.val) : k0_off1 i 0 = 512 * t.val := by
  show (Scalar.indexCast (Scalar.muli (BitVec.ofNat 32 (i 0).val) 512#32)).toNat = _
  rw [ht]; exact slab_off t
theorem off2_1 (i : grid0.Coords) (t : Fin 16) (ht : (i 0).val = t.val) : k0_off2 i 1 = 512 * t.val := by
  show (Scalar.indexCast (Scalar.muli (BitVec.ofNat 32 (i 0).val) 512#32)).toNat = _
  rw [ht]; exact slab_off t

theorem ld_slab (x1 : Vec Ideal S8192x128 .f32) (i : grid0.Coords) (t : Fin 16) (ht : (i 0).val = t.val)
    (inb : ∀ a, k0_off1 i a + S512x128.size a ≤ S8192x128.size a) (r : Fin 512) (d : Fin 128) :
    View.ld (Val := Elt Ideal) x1 (Rect.unit (s := S8192x128) (k0_off1 i) S512x128.size inb) (ix2 r d) = x1 (ix2 (slabIdx t r) d) :=
  congrArg x1 (funext fun a => Fin.ext (match a with
    | ⟨0, _⟩ => by show k0_off1 i 0 + 1 * r.val = 512 * t.val + r.val; rw [off1_0 i t ht]; omega
    | ⟨1, _⟩ => by show 0 + 1 * d.val = d.val; omega))

theorem ld_bel (x0 : Vec Ideal S16x8192 .f32) (i : grid0.Coords) (t : Fin 16) (ht : (i 0).val = t.val)
    (inb : ∀ a, k0_off2 i a + S16x512.size a ≤ S16x8192.size a) (b : Fin 16) (r : Fin 512) :
    View.ld (Val := Elt Ideal) x0 (Rect.unit (s := S16x8192) (k0_off2 i) S16x512.size inb) (ix2 b r) = x0 (ix2 b (slabIdx t r)) :=
  congrArg x0 (funext fun a => Fin.ext (match a with
    | ⟨0, _⟩ => by show 0 + 1 * b.val = b.val; omega
    | ⟨1, _⟩ => by show k0_off2 i 1 + 1 * r.val = 512 * t.val + r.val; rw [off2_1 i t ht]; omega))

theorem ld_cols {m : ℕ} (e : EltTy) (X : (⟨2, ![m, 8192]⟩ : Shape).Idx → Elt Ideal e) (o : ℕ)
    (inb : ∀ a, (![0, o] : Fin 2 → ℕ) a + (![m, 1024] : Fin 2 → ℕ) a ≤ (⟨2, ![m, 8192]⟩ : Shape).size a)
    (a : Fin m) (l : Fin 1024) (hl : o + l.val < 8192) :
    View.ld (Val := Elt Ideal) X (Rect.unit (s := (⟨2, ![m, 8192]⟩ : Shape)) ![0, o] ![m, 1024] inb) (ix2 a l) = X (ix2 a ⟨o + l.val, hl⟩) :=
  congrArg X (funext fun c => Fin.ext (match c with
    | ⟨0, _⟩ => by show 0 + 1 * a.val = a.val; omega
    | ⟨1, _⟩ => by show o + 1 * l.val = o + l.val; omega))

theorem emb_cols {m : ℕ} (o : ℕ)
    (inb : ∀ a, (![0, o] : Fin 2 → ℕ) a + (![m, 1024] : Fin 2 → ℕ) a ≤ (⟨2, ![m, 8192]⟩ : Shape).size a)
    (a : Fin m) (l : Fin 1024) (hl : o + l.val < 8192) :
    (Rect.unit (s := (⟨2, ![m, 8192]⟩ : Shape)) ![0, o] ![m, 1024] inb).emb (ix2 a l) = ix2 a ⟨o + l.val, hl⟩ :=
  funext fun c => Fin.ext (match c with
    | ⟨0, _⟩ => by show 0 + 1 * a.val = a.val; omega
    | ⟨1, _⟩ => by show o + 1 * l.val = o + l.val; omega)

theorem cols_lt {m : ℕ} (o : ℕ)
    (inb : ∀ a, (![0, o] : Fin 2 → ℕ) a + (![m, 1024] : Fin 2 → ℕ) a ≤ (⟨2, ![m, 8192]⟩ : Shape).size a)
    (l : Fin 1024) : o + l.val < 8192 := by
  have h := inb 1
  change o + 1024 ≤ 8192 at h
  have := l.isLt
  omega

theorem slab_query (x1 : Vec Ideal S8192x128 .f32) (x2 : Vec Ideal S64x128 .f32) (x3 : Vec Ideal S1x64 .f32)
    (i : grid0.Coords) (t : Fin 16) (ht : (i 0).val = t.val)
    (inb1 : ∀ a, k0_off1 i a + S512x128.size a ≤ S8192x128.size a)
    (inb2 : ∀ a, (![0, 0] : Fin 2 → ℕ) a + S64x128.size a ≤ S64x128.size a)
    (inb3 : ∀ a, (![0, 0] : Fin 2 → ℕ) a + S1x64.size a ≤ S1x64.size a) (r : Fin 512) (h : Fin 64) :
    k0_pay8 (F := Ideal) (View.ld (Val := Elt Ideal) x1 (Rect.unit (s := S8192x128) (k0_off1 i) S512x128.size inb1))
      (View.ld (Val := Elt Ideal) x2 (Rect.unit (s := S64x128) ![0, 0] S64x128.size inb2))
      (View.ld (Val := Elt Ideal) x3 (Rect.unit (s := S1x64) ![0, 0] S1x64.size inb3)) (ix2 r h) = qBlk x1 x2 x3 t r h := by
  rw [View.ld_unit_zero (Val := Elt Ideal) hz2 inb2 x2, View.ld_unit_zero (Val := Elt Ideal) hz2 inb3 x3]
  refine (pay8_apply _ x2 x3 r h).trans ?_
  unfold qBlk
  exact congrArg (· + x3 (ix2 0 h)) (Finset.sum_congr rfl fun d _ => congrArg (· * x2 (ix2 h d)) (ld_slab x1 i t ht inb1 r d))

theorem pa_piece (x1 : Vec Ideal S8192x128 .f32) (x2 : Vec Ideal S64x128 .f32) (x3 : Vec Ideal S1x64 .f32) (xkt : Vec Ideal S64x8192 .bf16) (t : Fin 16)
    (o : ℕ) (inb : ∀ a, (![0, o] : Fin 2 → ℕ) a + (![512, 1024] : Fin 2 → ℕ) a ≤ S512x8192.size a)
    (w : FVec Ideal S512x1024 .bf16) (q : FVec Ideal S512x64 .bf16) (kc : Vec Ideal S64x1024 .bf16)
    (hw : ∀ r l, w (ix2 r l) = Ideal.exp (∑ h : Fin 64, q (ix2 r h) * kc (ix2 h l)))
    (hq : ∀ r h, q (ix2 r h) = qBlk x1 x2 x3 t r h)
    (hkc : ∀ (h : Fin 64) (l : Fin 1024) (hl : o + l.val < 8192), kc (ix2 h l) = xkt (ix2 h ⟨o + l.val, hl⟩))
    (x : (Rect.unit (s := S512x8192) ![0, o] ![512, 1024] inb).shape.Idx) :
    w x = (fun j : S512x8192.Idx => pBlk x1 x2 x3 xkt t (j 0) (j 1)) ((Rect.unit (s := S512x8192) ![0, o] ![512, 1024] inb).emb x) := by
  obtain ⟨a, b, rfl⟩ : ∃ (a : Fin 512) (b : Fin 1024), x = ix2 a b := ⟨x 0, x 1, eq_ix2 x⟩
  have hb := cols_lt o inb b
  rw [emb_cols o inb a b hb]
  show w (ix2 a b) = Ideal.exp (∑ h : Fin 64, qBlk x1 x2 x3 t a h * xkt (ix2 h ⟨o + b.val, hb⟩))
  rw [hw]
  exact congrArg Ideal.exp (Finset.sum_congr rfl fun h _ => by rw [hq, hkc h b hb])

theorem out_piece (xo : Vec Ideal S16x8192 .f32) (xwb : Vec Ideal S16x512 .bf16) (xpb : Vec Ideal S512x8192 .bf16)
    (o : ℕ) (inb : ∀ a, (![0, o] : Fin 2 → ℕ) a + (![16, 1024] : Fin 2 → ℕ) a ≤ S16x8192.size a)
    (w : FVec Ideal S16x1024 .f32) (oc : Vec Ideal S16x1024 .f32) (wv : Vec Ideal S16x512 .bf16) (pc : Vec Ideal S512x1024 .bf16)
    (hw : ∀ b l, w (ix2 b l) = oc (ix2 b l) + ∑ r : Fin 512, wv (ix2 b r) * pc (ix2 r l))
    (hoc : ∀ (b : Fin 16) (l : Fin 1024) (hl : o + l.val < 8192), oc (ix2 b l) = xo (ix2 b ⟨o + l.val, hl⟩))
    (hwv : wv = xwb)
    (hpc : ∀ (r : Fin 512) (l : Fin 1024) (hl : o + l.val < 8192), pc (ix2 r l) = xpb (ix2 r ⟨o + l.val, hl⟩))
    (x : (Rect.unit (s := S16x8192) ![0, o] ![16, 1024] inb).shape.Idx) :
    w x = (fun j : S16x8192.Idx => consume xo xwb xpb (j 0) (j 1)) ((Rect.unit (s := S16x8192) ![0, o] ![16, 1024] inb).emb x) := by
  obtain ⟨b, l, rfl⟩ : ∃ (b : Fin 16) (l : Fin 1024), x = ix2 b l := ⟨x 0, x 1, eq_ix2 x⟩
  have hl := cols_lt o inb l
  rw [emb_cols o inb b l hl]
  show w (ix2 b l) = xo (ix2 b ⟨o + l.val, hl⟩) + ∑ r : Fin 512, xwb (ix2 b r) * xpb (ix2 r ⟨o + l.val, hl⟩)
  rw [hw, hoc b l hl, hwv]
  exact congrArg (_ + ·) (Finset.sum_congr rfl fun r _ => by rw [hpc r l hl])

theorem pay10_apply (v15 : Vec Ideal S512x128 .f32) (v16 : Vec Ideal S64x128 .f32) (v18 : Vec Ideal S1x64 .f32) (v24 : Vec Ideal S64x1024 .bf16) (r : Fin 512) :
    k0_pay10 (F := Ideal) v15 v16 v18 v24 (ix2 r 0) = 0 + ∑ l : Fin 1024, k0_pay9 (F := Ideal) v15 v16 v18 v24 (ix2 r l) := by
  unfold k0_pay10
  refine (rs_step _ _ r).trans ?_
  refine congrArg (· + _) ?_
  show Ideal.ofBits .f32 0x00000000#32 = 0
  exact Ideal.ofBits_zero_f32

theorem pay17_apply (q : FVec Ideal S512x64 .bf16) (v29 : FVec Ideal S512x1 .f32) (v43 : FVec Ideal S512x1024 .f32) (v58 : Vec Ideal S64x1024 .bf16) (r : Fin 512) :
    k0_pay17 (F := Ideal) q v29 v43 v58 (ix2 r 0)
      = (v29 (ix2 r 0) + ∑ l : Fin 1024, v43 (ix2 r l)) + ∑ l : Fin 1024, k0_pay16 (F := Ideal) q v58 (ix2 r l) := by
  unfold k0_pay17
  exact (rs_step _ _ r).trans (congrArg (· + _) (rs_step _ _ r))

theorem pay24_apply (q : FVec Ideal S512x64 .bf16) (v63 : FVec Ideal S512x1 .f32) (v75 v92 : Vec Ideal S64x1024 .bf16) (r : Fin 512) :
    k0_pay24 (F := Ideal) q v63 v75 v92 (ix2 r 0)
      = (v63 (ix2 r 0) + ∑ l : Fin 1024, k0_pay20 (F := Ideal) q v75 (ix2 r l)) + ∑ l : Fin 1024, k0_pay23 (F := Ideal) q v92 (ix2 r l) := by
  unfold k0_pay24
  exact (rs_step _ _ r).trans (congrArg (· + _) (rs_step _ _ r))

theorem pay32_apply (q : FVec Ideal S512x64 .bf16) (v97 : FVec Ideal S512x1 .f32) (v109 v126 : Vec Ideal S64x1024 .bf16) (r : Fin 512) :
    k0_pay32 (F := Ideal) q v97 v109 v126 (ix2 r 0)
      = (v97 (ix2 r 0) + ∑ l : Fin 1024, k0_pay28 (F := Ideal) q v109 (ix2 r l)) + ∑ l : Fin 1024, k0_pay31 (F := Ideal) q v126 (ix2 r l) := by
  unfold k0_pay32
  exact (rs_step _ _ r).trans (congrArg (· + _) (rs_step _ _ r))

theorem pay38_apply (q : FVec Ideal S512x64 .bf16) (v131 : FVec Ideal S512x1 .f32) (v143 : Vec Ideal S64x1024 .bf16) (v163 : Vec Ideal S16x512 .f32)
    (b : Fin 16) (r : Fin 512) :
    k0_pay38 (F := Ideal) q v131 v143 v163 (ix2 b r)
      = Ideal.div (v163 (ix2 b r)) (v131 (ix2 r 0) + ∑ l : Fin 1024, k0_pay35 (F := Ideal) q v143 (ix2 r l)) := by
  unfold k0_pay38
  refine congrArg (Ideal.div (v163 (ix2 b r))) ?_
  refine (broadcastTo_apply _ broadcasts_S1x512_S16x512 (ix2 b r) (ix2 0 r) (fun a => match a with
    | ⟨0, _⟩ => by show 0 = if (1 : Nat) = 1 then 0 else _; rw [if_pos rfl]
    | ⟨1, _⟩ => by show r.val = if (512 : Nat) = 1 then 0 else r.val; rw [if_neg (by decide)])).trans ?_
  refine (transpose_apply [1, 0] _ transposes_S512x1_p1_0_S1x512 (ix2 0 r) (ix2 r 0) (fun c => match c with
    | ⟨0, _⟩ => rfl
    | ⟨1, _⟩ => rfl)).trans ?_
  exact rs_step _ _ r

theorem chunk_exp (x1 : Vec Ideal S8192x128 .f32) (x2 : Vec Ideal S64x128 .f32) (x3 : Vec Ideal S1x64 .f32) (xkt : Vec Ideal S64x8192 .bf16) (t : Fin 16)
    (q : FVec Ideal S512x64 .bf16) (hq : ∀ r h, q (ix2 r h) = qBlk x1 x2 x3 t r h)
    (k : Fin 8) (o : ℕ) (ho : o = 1024 * k.val) (e : FVec Ideal S512x1024 .f32) (kc : Vec Ideal S64x1024 .bf16)
    (he : ∀ r l, e (ix2 r l) = Ideal.exp (∑ h : Fin 64, q (ix2 r h) * kc (ix2 h l)))
    (hkc : ∀ (h : Fin 64) (l : Fin 1024) (hl : o + l.val < 8192), kc (ix2 h l) = xkt (ix2 h ⟨o + l.val, hl⟩))
    (r : Fin 512) (l : Fin 1024) : e (ix2 r l) = pBlk x1 x2 x3 xkt t r (chunkIdx k l) := by
  subst ho
  rw [he]
  unfold pBlk
  exact congrArg Ideal.exp (Finset.sum_congr rfl fun h _ => by
    rw [hq, hkc h l (by have := l.isLt; have := k.isLt; omega)]; rfl)

theorem wa_gen (x0 : Vec Ideal S16x8192 .f32) (x1 : Vec Ideal S8192x128 .f32) (x2 : Vec Ideal S64x128 .f32) (x3 : Vec Ideal S1x64 .f32)
    (xkt : Vec Ideal S64x8192 .bf16) (t : Fin 16)
    (X1 : Vec Ideal S512x128 .f32) (X2 : Vec Ideal S64x128 .f32) (X3 : Vec Ideal S1x64 .f32)
    (K0 K1 K2 K3 K4 K5 K6 K7 : Vec Ideal S64x1024 .bf16) (B0 : Vec Ideal S16x512 .f32)
    (hq : ∀ r h, k0_pay8 (F := Ideal) X1 X2 X3 (ix2 r h) = qBlk x1 x2 x3 t r h)
    (h0 : ∀ (h : Fin 64) (l : Fin 1024) (hl : 0 + l.val < 8192), K0 (ix2 h l) = xkt (ix2 h ⟨0 + l.val, hl⟩))
    (h1 : ∀ (h : Fin 64) (l : Fin 1024) (hl : 1024 + l.val < 8192), K1 (ix2 h l) = xkt (ix2 h ⟨1024 + l.val, hl⟩))
    (h2 : ∀ (h : Fin 64) (l : Fin 1024) (hl : 2048 + l.val < 8192), K2 (ix2 h l) = xkt (ix2 h ⟨2048 + l.val, hl⟩))
    (h3 : ∀ (h : Fin 64) (l : Fin 1024) (hl : 3072 + l.val < 8192), K3 (ix2 h l) = xkt (ix2 h ⟨3072 + l.val, hl⟩))
    (h4 : ∀ (h : Fin 64) (l : Fin 1024) (hl : 4096 + l.val < 8192), K4 (ix2 h l) = xkt (ix2 h ⟨4096 + l.val, hl⟩))
    (h5 : ∀ (h : Fin 64) (l : Fin 1024) (hl : 5120 + l.val < 8192), K5 (ix2 h l) = xkt (ix2 h ⟨5120 + l.val, hl⟩))
    (h6 : ∀ (h : Fin 64) (l : Fin 1024) (hl : 6144 + l.val < 8192), K6 (ix2 h l) = xkt (ix2 h ⟨6144 + l.val, hl⟩))
    (h7 : ∀ (h : Fin 64) (l : Fin 1024) (hl : 7168 + l.val < 8192), K7 (ix2 h l) = xkt (ix2 h ⟨7168 + l.val, hl⟩))
    (hB : ∀ b r, B0 (ix2 b r) = x0 (ix2 b (slabIdx t r)))
    (b : Fin 16) (r : Fin 512) :
    k0_pay5 (F := Ideal) (k0_pay38 (k0_pay8 X1 X2 X3) (k0_pay32 (k0_pay8 X1 X2 X3) (k0_pay24 (k0_pay8 X1 X2 X3)
        (k0_pay17 (k0_pay8 X1 X2 X3) (k0_pay10 X1 X2 X3 K0) (k0_pay13 X1 X2 X3 K1) K2) K3 K4) K5 K6) K7 B0) (ix2 b r)
      = wBlk x0 x1 x2 x3 xkt t b r := by
  have e0 : ∀ l, k0_pay9 (F := Ideal) X1 X2 X3 K0 (ix2 r l) = pBlk x1 x2 x3 xkt t r (chunkIdx 0 l) := fun l =>
    chunk_exp x1 x2 x3 xkt t _ hq 0 0 rfl _ K0 (fun r l => expc_apply _ _ r l) h0 r l
  have e1 : ∀ l, k0_pay13 (F := Ideal) X1 X2 X3 K1 (ix2 r l) = pBlk x1 x2 x3 xkt t r (chunkIdx 1 l) := fun l =>
    chunk_exp x1 x2 x3 xkt t _ hq 1 1024 rfl _ K1 (fun r l => expc_apply _ _ r l) h1 r l
  have e2 : ∀ l, k0_pay16 (F := Ideal) (k0_pay8 X1 X2 X3) K2 (ix2 r l) = pBlk x1 x2 x3 xkt t r (chunkIdx 2 l) := fun l =>
    chunk_exp x1 x2 x3 xkt t _ hq 2 2048 rfl _ K2 (fun r l => expc_apply _ _ r l) h2 r l
  have e3 : ∀ l, k0_pay20 (F := Ideal) (k0_pay8 X1 X2 X3) K3 (ix2 r l) = pBlk x1 x2 x3 xkt t r (chunkIdx 3 l) := fun l =>
    chunk_exp x1 x2 x3 xkt t _ hq 3 3072 rfl _ K3 (fun r l => expc_apply _ _ r l) h3 r l
  have e4 : ∀ l, k0_pay23 (F := Ideal) (k0_pay8 X1 X2 X3) K4 (ix2 r l) = pBlk x1 x2 x3 xkt t r (chunkIdx 4 l) := fun l =>
    chunk_exp x1 x2 x3 xkt t _ hq 4 4096 rfl _ K4 (fun r l => expc_apply _ _ r l) h4 r l
  have e5 : ∀ l, k0_pay28 (F := Ideal) (k0_pay8 X1 X2 X3) K5 (ix2 r l) = pBlk x1 x2 x3 xkt t r (chunkIdx 5 l) := fun l =>
    chunk_exp x1 x2 x3 xkt t _ hq 5 5120 rfl _ K5 (fun r l => expc_apply _ _ r l) h5 r l
  have e6 : ∀ l, k0_pay31 (F := Ideal) (k0_pay8 X1 X2 X3) K6 (ix2 r l) = pBlk x1 x2 x3 xkt t r (chunkIdx 6 l) := fun l =>
    chunk_exp x1 x2 x3 xkt t _ hq 6 6144 rfl _ K6 (fun r l => expc_apply _ _ r l) h6 r l
  have e7 : ∀ l, k0_pay35 (F := Ideal) (k0_pay8 X1 X2 X3) K7 (ix2 r l) = pBlk x1 x2 x3 xkt t r (chunkIdx 7 l) := fun l =>
    chunk_exp x1 x2 x3 xkt t _ hq 7 7168 rfl _ K7 (fun r l => expc_apply _ _ r l) h7 r l
  unfold k0_pay5
  refine (congrFun (shapeCast_self _ shapeCasts_S16x512_S16x512) _).trans ?_
  refine (pay38_apply _ _ _ _ b r).trans ?_
  unfold wBlk zBlk
  rw [hB b r, pay32_apply, pay24_apply, pay17_apply, pay10_apply]
  simp only [e0, e1, e2, e3, e4, e5, e6, e7]

end Cert.KernelIdeal.Val.Aux

end
-- ==== Proof.Val.First.lean ====
/- The first point: the key table, slab 0's exponentials and weights over it, and a result of zeros. -/
import proofs.«119842_g5935644803188_cont_9to1c4b_610_16_alg».proof.Proof.Val.Common
import proofs.«119842_g5935644803188_cont_9to1c4b_610_16_alg».proof.Proof.Body.State

set_option maxRecDepth 16384

noncomputable section

open scoped BigOperators

namespace Cert.KernelIdeal.Val

open Idealize.ShloMosaic Idealize.ShloMosaic.ValueIdx Idealize.ShloMosaic.Tactic Idealize.SL.Sem
open Cert.KernelIdeal Cert.KernelIdeal.Gen Cert.KernelIdeal.Body Cert.Spec Aux

namespace FirstAux

theorem bf16_zero : Ideal.ofBits .bf16 0x0000#16 = 0 := by simp [Ideal.ofBits, Ideal.ieee]

theorem pay2_zero (x : S16x8192.Idx) : (k0_pay2 (F := Ideal)) x = 0 := Ideal.ofBits_zero_f32

theorem pay3_zero (x : S16x512.Idx) : (k0_pay3 (F := Ideal)) x = 0 :=
  (congrFun (shapeCast_self (broadcast S16x512 (Scalar.ofBits (F := Ideal) .bf16 0x0000#16)) shapeCasts_S16x512_S16x512) x).trans bf16_zero

theorem mmKT_apply (a : FVec Ideal S64x128 .f32) (b : FVec Ideal S8192x128 .f32) (h : Fin 64) (s : Fin 8192) :
    (matmul dot_S64x128_S8192x128_S64x8192_1_1_0_0_n_n none a b (constant (F := Ideal) S64x8192 .f32 0x00000000#32) : FVec Ideal S64x8192 .f32) (ix2 h s)
      = ∑ d : Fin 128, a (ix2 h d) * b (ix2 s d) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  refine congrArg₂ (· * ·) (congrArg a (funext fun c => Fin.ext ?_)) (congrArg b (funext fun c => Fin.ext ?_))
  · match c with
    | ⟨0, _⟩ => rfl
    | ⟨1, _⟩ => exact (dot_S64x128_S8192x128_S64x8192_1_1_0_0_n_n.lhsIdx_val_of_single rfl _ _).trans hk
  · match c with
    | ⟨0, _⟩ => rfl
    | ⟨1, _⟩ => exact (dot_S64x128_S8192x128_S64x8192_1_1_0_0_n_n.rhsIdx_val_of_single rfl _ _).trans hk

theorem kt_run (x4 : Vec Ideal S64x128 .f32) (x1 : Vec Ideal S8192x128 .f32) (x5 : Vec Ideal S64x1 .f32) :
    k0_pay1 (F := Ideal) (View.ld (Val := Elt Ideal) x4 (Rect.unit (s := S64x128) ![0, 0] S64x128.size inb_S64x128_S64x128_0_0))
      (View.ld (Val := Elt Ideal) x1 (Rect.unit (s := S8192x128) ![0, 0] S8192x128.size inb_S8192x128_S8192x128_0_0))
      (View.ld (Val := Elt Ideal) x5 (Rect.unit (s := S64x1) ![0, 0] S64x1.size inb_S64x1_S64x1_0_0)) = fun j => ktForm x4 x1 x5 (j 0) (j 1) := by
  rw [View.ld_unit_zero (Val := Elt Ideal) hz2 _ x4, View.ld_unit_zero (Val := Elt Ideal) hz2 _ x1, View.ld_unit_zero (Val := Elt Ideal) hz2 _ x5]
  funext j
  obtain ⟨h, s, rfl⟩ : ∃ (h : Fin 64) (s : Fin 8192), j = ix2 h s := ⟨j 0, j 1, eq_ix2 j⟩
  unfold k0_pay1
  refine (congrFun (shapeCast_self _ shapeCasts_S64x8192_S64x8192) _).trans (congrArg₂ (· + ·) (mmKT_apply x4 x1 h s) ?_)
  refine (broadcastTo_apply _ broadcasts_S64x1_S64x8192 (ix2 h s) (ix2 h 0) (fun a => match a with
    | ⟨0, _⟩ => by show h.val = if (64 : Nat) = 1 then 0 else h.val; rw [if_neg (by decide)]
    | ⟨1, _⟩ => by show 0 = if (1 : Nat) = 1 then 0 else _; rw [if_pos rfl])).trans ?_
  exact congrFun (shapeCast_self x5 shapeCasts_S64x1_S64x1) _

/-- Columns `o + l` of a table written whole and read back are those columns of what was written. -/
theorem kt_cols (v : View sig .tc .vmem S64x8192 .bf16) (X KT : Vec Ideal S64x8192 .bf16) (hKT : KT = X)
    (i0 : ∀ a, (![0, 0] : Fin 2 → ℕ) a + S64x8192.size a ≤ S64x8192.size a) (o : ℕ)
    (inb : ∀ a, (![0, o] : Fin 2 → ℕ) a + (![64, 1024] : Fin 2 → ℕ) a ≤ S64x8192.size a) (h : Fin 64) (l : Fin 1024) (hl : o + l.val < 8192) :
    v.readCov [(⟨Rect.unit (s := S64x8192) ![0, 0] S64x8192.size i0, KT⟩ : View.Piece (Elt Ideal) S64x8192 .bf16)]
      (Rect.unit (s := S64x8192) ![0, o] ![64, 1024] inb).toLoadRect (ix2 h l) = X (ix2 h ⟨o + l.val, hl⟩) := by
  subst hKT
  rw [View.readCov_eq_canon', View.canon_unit_zero hz2]
  exact ld_cols .bf16 KT o inb h l hl

def ZeroCover (L : List (View.Piece (Elt Ideal) S16x8192 .f32)) : Prop :=
  (∀ p ∈ L, ∀ x : p.1.shape.Idx, p.2 x = (0 : EReal)) ∧ ∀ y : S16x8192.Idx, ∃ p ∈ L, y ∈ p.1.set

theorem ZeroCover.canon {L : List (View.Piece (Elt Ideal) S16x8192 .f32)} (h : ZeroCover L) (y : S16x8192.Idx) : View.canon L y = (0 : EReal) :=
  View.canon_apply_of_pieces (fun _ => (0 : EReal)) L h.1 y (h.2 y)

theorem zeroCover_base {off : Fin 2 → ℕ} (hz : off = fun _ => 0) (inb : ∀ a, off a + S16x8192.size a ≤ S16x8192.size a) :
    ZeroCover [(⟨Rect.unit (s := S16x8192) off S16x8192.size inb, k0_pay2 (F := Ideal)⟩ : View.Piece (Elt Ideal) S16x8192 .f32)] :=
  ⟨fun p hp x => by
      obtain rfl := List.mem_singleton.mp hp
      exact pay2_zero x,
   fun y => ⟨_, List.mem_singleton_self _, View.mem_set_unit_zero hz inb y⟩⟩

/-- A chunk's update from zero entries and zero weights is zero: 0 + Σ 0 · p = 0. -/
theorem zeroCover_cons (v : View sig .tc .vmem S16x8192 .f32) (off : Fin 2 → ℕ) (inb : ∀ a, off a + S16x1024.size a ≤ S16x8192.size a)
    (L : List (View.Piece (Elt Ideal) S16x8192 .f32)) (W : Vec Ideal S16x512 .bf16) (P : Vec Ideal S512x1024 .bf16)
    (hW : ∀ x, W x = (0 : EReal)) (hL : ZeroCover L) :
    ZeroCover ((⟨Rect.unit (s := S16x8192) off S16x1024.size inb,
      k0_pay12 (F := Ideal) (v.readCov L (Rect.unit (s := S16x8192) off S16x1024.size inb).toLoadRect) W P⟩ : View.Piece (Elt Ideal) S16x8192 .f32) :: L) := by
  refine ⟨fun p hp => ?_, fun y => (hL.2 y).imp fun p hp => ⟨List.mem_cons_of_mem _ hp.1, hp.2⟩⟩
  rcases List.mem_cons.mp hp with rfl | hp
  · intro x
    obtain ⟨b, l, rfl⟩ : ∃ (b : Fin 16) (l : Fin 1024), x = ix2 b l := ⟨x 0, x 1, eq_ix2 x⟩
    refine (outc_apply _ W P b l).trans ?_
    rw [View.readCov_eq_canon']; beta_reduce
    rw [hL.canon, Finset.sum_eq_zero (fun r _ => by rw [hW, zero_mul]), add_zero]
  · exact hL.1 p hp

end FirstAux

open FirstAux

variable (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : atFirst i) (hc1 : atEven i) (hc2 : ¬atOdd i) (hc3 : ¬atLast i)
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32)

theorem first_out :
    rd arg7 (runFirst (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 ).1 = fun _ => (0 : EReal) := by
  unfold rd
  rw [View.read_writes_junk_eq_canon]
  refine funext (ZeroCover.canon ?_)
  unfold runFirst; dsimp only; sl_unfold_words
  iterate 8 refine zeroCover_cons _ _ _ _ _ _ (fun x => (congrFun (View.readCov_unit_zero (S := S16x512) _ hz2 _ _) x).trans (pay3_zero x)) ?_
  exact zeroCover_base hz2 _

theorem first_kt :
    rd arg8 (runFirst (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 ).2.1 = fun j => ktForm x4 x1 x5 (j 0) (j 1) := by
  unfold rd
  rw [View.read_writes_junk_eq_canon]
  unfold runFirst; dsimp only; sl_unfold_run_names
  simp only [View.readAt_eq_ld, harg2.read_unread, harg5.read_unread, harg6.read_unread]
  exact (View.canon_unit_zero (S := S64x8192) hz2 inb_S64x8192_S64x8192_0_0 _).trans (kt_run x4 x1 x5)

theorem first_pa (t : Fin 16) (ht : (i 0).val = t.val) :
    rd arg9 (runFirst (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 ).2.2.1 = fun j => pBlk x1 x2 x3 (fun j => ktForm x4 x1 x5 (j 0) (j 1)) t (j 0) (j 1) := by
  unfold rd
  rw [View.read_writes_junk_eq_canon]
  funext j
  refine View.canon_apply_of_pieces (Val := Elt Ideal) (e := .bf16) (fun j : S512x8192.Idx => pBlk x1 x2 x3 (fun j => ktForm x4 x1 x5 (j 0) (j 1)) t (j 0) (j 1)) _ ?_ j (View.cover_of_tiledL (s := S512x8192) _ S512x1024.size (by sl_kernel_rfl) j)
  unfold runFirst; dsimp only; sl_unfold_run_names
  simp only [View.readAt_eq_ld, harg2.read_unread, harg3.read_unread, harg4.read_unread, harg5.read_unread, harg6.read_unread]
  intro p hp
  simp only [List.mem_cons, List.mem_singleton, List.not_mem_nil, or_false] at hp
  rcases hp with rfl | rfl | rfl | rfl | rfl | rfl | rfl | rfl <;>
    exact pa_piece x1 x2 x3 (fun j => ktForm x4 x1 x5 (j 0) (j 1)) t _ (by decide) _ _ _ (fun r l => (pack_apply _ _).trans (expc_apply _ _ r l)) (slab_query x1 x2 x3 i t ht (k0_off1_inb i hc1) inb_S64x128_S64x128_0_0 inb_S1x64_S1x64_0_0) (fun h l hl => kt_cols _ _ _ (kt_run x4 x1 x5) _ _ _ h l hl)

theorem first_wa (t : Fin 16) (ht : (i 0).val = t.val) :
    rd arg11 (runFirst (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 ).2.2.2.2.1 = fun j => wBlk x0 x1 x2 x3 (fun j => ktForm x4 x1 x5 (j 0) (j 1)) t (j 0) (j 1) := by
  unfold rd
  rw [View.read_writes_junk_eq_canon]
  unfold runFirst; dsimp only; sl_unfold_run_names
  simp only [View.readAt_eq_ld, harg1.read_unread, harg2.read_unread, harg3.read_unread, harg4.read_unread, harg5.read_unread, harg6.read_unread]
  refine (View.canon_unit_zero (S := S16x512) hz2 inb_S16x512_S16x512_0_0 _).trans ?_
  funext j
  obtain ⟨b, r, rfl⟩ : ∃ (b : Fin 16) (r : Fin 512), j = ix2 b r := ⟨j 0, j 1, eq_ix2 j⟩
  have K {o inb} := kt_cols arg8.view _ _ (kt_run x4 x1 x5) inb_S64x8192_S64x8192_0_0 o inb
  exact wa_gen x0 x1 x2 x3 _ t _ _ _ _ _ _ _ _ _ _ _ _ (slab_query x1 x2 x3 i t ht (k0_off1_inb i hc1) inb_S64x128_S64x128_0_0 inb_S1x64_S1x64_0_0) K K K K K K K K
    (ld_bel x0 i t ht (k0_off2_inb i hc1)) b r

end Cert.KernelIdeal.Val

end
-- ==== Proof.Val.Even.lean ====
/- An even point after the first: slab t's exponentials and weights, and the result with slab t-1 added. -/
import proofs.«119842_g5935644803188_cont_9to1c4b_610_16_alg».proof.Proof.Val.Common
import proofs.«119842_g5935644803188_cont_9to1c4b_610_16_alg».proof.Proof.Body.State

set_option maxRecDepth 16384

noncomputable section

open scoped BigOperators

namespace Cert.KernelIdeal.Val

open Idealize.ShloMosaic Idealize.ShloMosaic.ValueIdx Idealize.ShloMosaic.Tactic Idealize.SL.Sem
open Cert.KernelIdeal Cert.KernelIdeal.Gen Cert.KernelIdeal.Body Cert.Spec Aux

variable (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : atEven i) (hc2 : ¬atOdd i) (hc3 : ¬atLast i)
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) (xo : Vec Ideal S16x8192 .f32) (xkt : Vec Ideal S64x8192 .bf16) (xpb : Vec Ideal S512x8192 .bf16) (xwb : Vec Ideal S16x512 .bf16)

theorem even_out :
    rd arg7 (runEven (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpb xwb).1 = fun j => consume xo xwb xpb (j 0) (j 1) := by
  unfold rd
  rw [View.read_writes_junk_eq_canon]
  funext j
  refine View.canon_apply_of_pieces (Val := Elt Ideal) (e := .f32) (fun j : S16x8192.Idx => consume xo xwb xpb (j 0) (j 1)) _ ?_ j (View.cover_of_tiledL (s := S16x8192) _ S16x1024.size (by sl_kernel_rfl) j)
  unfold runEven
  dsimp only
  sl_unfold_run_names
  simp only [View.readAt_eq_ld, harg7.read_unread, harg10.read_unread, harg12.read_unread]
  unfold k0_pay26
  intro p hp
  simp only [List.mem_cons, List.mem_singleton, List.not_mem_nil, or_false] at hp
  rcases hp with rfl | rfl | rfl | rfl | rfl | rfl | rfl | rfl <;>
    exact out_piece xo xwb xpb _ (by decide) _ _ _ _ (fun b l => outc_apply _ _ _ b l) (ld_cols .f32 xo _ _)
      (View.ld_unit_zero (Val := Elt Ideal) hz2 inb_S16x512_S16x512_0_0 xwb) (ld_cols .bf16 xpb _ _)

theorem even_pa (t : Fin 16) (ht : (i 0).val = t.val) :
    rd arg9 (runEven (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpb xwb).2.1 = fun j => pBlk x1 x2 x3 xkt t (j 0) (j 1) := by
  unfold rd
  rw [View.read_writes_junk_eq_canon]
  funext j
  refine View.canon_apply_of_pieces (Val := Elt Ideal) (e := .bf16) (fun j : S512x8192.Idx => pBlk x1 x2 x3 xkt t (j 0) (j 1)) _ ?_ j (View.cover_of_tiledL (s := S512x8192) _ S512x1024.size (by sl_kernel_rfl) j)
  unfold runEven
  dsimp only
  sl_unfold_run_names
  simp only [View.readAt_eq_ld, harg2.read_unread, harg3.read_unread, harg4.read_unread, harg8.read_unread]
  intro p hp
  simp only [List.mem_cons, List.mem_singleton, List.not_mem_nil, or_false] at hp
  rcases hp with rfl | rfl | rfl | rfl | rfl | rfl | rfl | rfl <;>
    exact pa_piece x1 x2 x3 xkt t _ (by decide) _ _ _ (fun r l => (pack_apply _ _).trans (expc_apply _ _ r l))
      (slab_query x1 x2 x3 i t ht (k0_off1_inb i hc1) inb_S64x128_S64x128_0_0 inb_S1x64_S1x64_0_0)
      (ld_cols .bf16 xkt _ _)

theorem even_wa (t : Fin 16) (ht : (i 0).val = t.val) :
    rd arg11 (runEven (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpb xwb).2.2.1 = fun j => wBlk x0 x1 x2 x3 xkt t (j 0) (j 1) := by
  unfold rd
  rw [View.read_writes_junk_eq_canon]
  unfold runEven
  dsimp only
  sl_unfold_run_names
  simp only [View.readAt_eq_ld, harg1.read_unread, harg2.read_unread, harg3.read_unread, harg4.read_unread, harg8.read_unread]
  refine (View.canon_unit_zero (S := S16x512) hz2 inb_S16x512_S16x512_0_0 _).trans ?_
  funext j
  obtain ⟨b, r, rfl⟩ : ∃ (b : Fin 16) (r : Fin 512), j = ix2 b r := ⟨j 0, j 1, eq_ix2 j⟩
  exact wa_gen x0 x1 x2 x3 xkt t _ _ _ _ _ _ _ _ _ _ _ _
    (slab_query x1 x2 x3 i t ht (k0_off1_inb i hc1) inb_S64x128_S64x128_0_0 inb_S1x64_S1x64_0_0)
    (ld_cols .bf16 xkt _ _) (ld_cols .bf16 xkt _ _)
    (ld_cols .bf16 xkt _ _) (ld_cols .bf16 xkt _ _)
    (ld_cols .bf16 xkt _ _) (ld_cols .bf16 xkt _ _)
    (ld_cols .bf16 xkt _ _) (ld_cols .bf16 xkt _ _)
    (ld_bel x0 i t ht (k0_off2_inb i hc1)) b r

end Cert.KernelIdeal.Val

end
-- ==== Proof.Val.Odd.lean ====
/- An odd point before the last: slab t's exponentials and weights, and the result with slab t-1 added. -/
import proofs.«119842_g5935644803188_cont_9to1c4b_610_16_alg».proof.Proof.Val.Common
import proofs.«119842_g5935644803188_cont_9to1c4b_610_16_alg».proof.Proof.Body.State

set_option maxRecDepth 16384

noncomputable section

open scoped BigOperators

namespace Cert.KernelIdeal.Val

open Idealize.ShloMosaic Idealize.ShloMosaic.ValueIdx Idealize.ShloMosaic.Tactic Idealize.SL.Sem
open Cert.KernelIdeal Cert.KernelIdeal.Gen Cert.KernelIdeal.Body Cert.Spec Aux

variable (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : ¬atLast i)
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) (xo : Vec Ideal S16x8192 .f32) (xkt : Vec Ideal S64x8192 .bf16) (xpa : Vec Ideal S512x8192 .bf16) (xwa : Vec Ideal S16x512 .bf16)

theorem odd_out :
    rd arg7 (runOdd (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).1 = fun j => consume xo xwa xpa (j 0) (j 1) := by
  unfold rd
  rw [View.read_writes_junk_eq_canon]
  funext j
  refine View.canon_apply_of_pieces (Val := Elt Ideal) (e := .f32) (fun j : S16x8192.Idx => consume xo xwa xpa (j 0) (j 1)) _ ?_ j (View.cover_of_tiledL (s := S16x8192) _ S16x1024.size (by sl_kernel_rfl) j)
  unfold runOdd
  dsimp only
  sl_unfold_run_names
  simp only [View.readAt_eq_ld, harg7.read_unread, harg9.read_unread, harg11.read_unread]
  unfold k0_pay57
  intro p hp
  simp only [List.mem_cons, List.mem_singleton, List.not_mem_nil, or_false] at hp
  rcases hp with rfl | rfl | rfl | rfl | rfl | rfl | rfl | rfl <;>
    exact out_piece xo xwa xpa _ (by decide) _ _ _ _ (fun b l => outc_apply _ _ _ b l) (ld_cols .f32 xo _ _)
      (View.ld_unit_zero (Val := Elt Ideal) hz2 inb_S16x512_S16x512_0_0 xwa) (ld_cols .bf16 xpa _ _)

theorem odd_pb (t : Fin 16) (ht : (i 0).val = t.val) :
    rd arg10 (runOdd (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).2.1 = fun j => pBlk x1 x2 x3 xkt t (j 0) (j 1) := by
  unfold rd
  rw [View.read_writes_junk_eq_canon]
  funext j
  refine View.canon_apply_of_pieces (Val := Elt Ideal) (e := .bf16) (fun j : S512x8192.Idx => pBlk x1 x2 x3 xkt t (j 0) (j 1)) _ ?_ j (View.cover_of_tiledL (s := S512x8192) _ S512x1024.size (by sl_kernel_rfl) j)
  unfold runOdd
  dsimp only
  sl_unfold_run_names
  simp only [View.readAt_eq_ld, harg2.read_unread, harg3.read_unread, harg4.read_unread, harg8.read_unread]
  intro p hp
  simp only [List.mem_cons, List.mem_singleton, List.not_mem_nil, or_false] at hp
  rcases hp with rfl | rfl | rfl | rfl | rfl | rfl | rfl | rfl <;>
    exact pa_piece x1 x2 x3 xkt t _ (by decide) _ _ _ (fun r l => (pack_apply _ _).trans (expc_apply _ _ r l))
      (slab_query x1 x2 x3 i t ht (k0_off3_inb i hc2) inb_S64x128_S64x128_0_0 inb_S1x64_S1x64_0_0)
      (ld_cols .bf16 xkt _ _)

theorem odd_wb (t : Fin 16) (ht : (i 0).val = t.val) :
    rd arg12 (runOdd (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).2.2.1 = fun j => wBlk x0 x1 x2 x3 xkt t (j 0) (j 1) := by
  unfold rd
  rw [View.read_writes_junk_eq_canon]
  unfold runOdd
  dsimp only
  sl_unfold_run_names
  simp only [View.readAt_eq_ld, harg1.read_unread, harg2.read_unread, harg3.read_unread, harg4.read_unread, harg8.read_unread]
  refine (View.canon_unit_zero (S := S16x512) hz2 inb_S16x512_S16x512_0_0 _).trans ?_
  funext j
  obtain ⟨b, r, rfl⟩ : ∃ (b : Fin 16) (r : Fin 512), j = ix2 b r := ⟨j 0, j 1, eq_ix2 j⟩
  exact wa_gen x0 x1 x2 x3 xkt t _ _ _ _ _ _ _ _ _ _ _ _
    (slab_query x1 x2 x3 i t ht (k0_off3_inb i hc2) inb_S64x128_S64x128_0_0 inb_S1x64_S1x64_0_0)
    (ld_cols .bf16 xkt _ _) (ld_cols .bf16 xkt _ _)
    (ld_cols .bf16 xkt _ _) (ld_cols .bf16 xkt _ _)
    (ld_cols .bf16 xkt _ _) (ld_cols .bf16 xkt _ _)
    (ld_cols .bf16 xkt _ _) (ld_cols .bf16 xkt _ _)
    (ld_bel x0 i t ht (k0_off4_inb i hc2)) b r

end Cert.KernelIdeal.Val

end
-- ==== Proof.Val.Last.lean ====
/- The last point: slab 15's exponentials and weights, and the result with slabs 14 and 15 added. -/
import proofs.«119842_g5935644803188_cont_9to1c4b_610_16_alg».proof.Proof.Val.Common
import proofs.«119842_g5935644803188_cont_9to1c4b_610_16_alg».proof.Proof.Body.State

noncomputable section

open scoped BigOperators

namespace Cert.KernelIdeal.Val

open Idealize.ShloMosaic Idealize.ShloMosaic.ValueIdx Idealize.ShloMosaic.Tactic Idealize.SL.Sem
open Cert.KernelIdeal Cert.KernelIdeal.Gen Cert.KernelIdeal.Body Cert.Spec Aux

private theorem whole_mm (w : FVec Ideal S16x512 .bf16) (p : FVec Ideal S512x8192 .bf16) (b : Fin 16) (j : Fin 8192) :
    (matmul (F := Ideal) dot_S16x512_S512x8192_S16x8192_1_0_0_1_n_n none w p (constant (F := Ideal) S16x8192 .f32 0x00000000#32)) (ix2 b j)
      = ∑ r : Fin 512, w (ix2 b r) * p (ix2 r j) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  generalize (contrEquiv1 dot_S16x512_S512x8192_S16x8192_1_0_0_1_n_n 512 rfl rfl).symm k = q at hk ⊢
  refine congrArg₂ (· * ·) (congrArg w (funext fun a => Fin.ext ?_)) (congrArg p (funext fun a => Fin.ext ?_))
  · match a with
    | ⟨0, _⟩ => rfl
    | ⟨1, _⟩ => exact (dot_S16x512_S512x8192_S16x8192_1_0_0_1_n_n.lhsIdx_val_of_single rfl _ q).trans hk
  · match a with
    | ⟨0, _⟩ => exact (dot_S16x512_S512x8192_S16x8192_1_0_0_1_n_n.rhsIdx_val_of_single rfl _ q).trans hk
    | ⟨1, _⟩ => rfl

private theorem pay7_apply (o : Vec Ideal S16x8192 .f32) (w : Vec Ideal S16x512 .bf16) (p : Vec Ideal S512x8192 .bf16) (b : Fin 16) (j : Fin 8192) :
    k0_pay7 (F := Ideal) o w p (ix2 b j) = o (ix2 b j) + ∑ r : Fin 512, w (ix2 b r) * p (ix2 r j) :=
  congrArg₂ (· + ·) (congrFun (shapeCast_self o shapeCasts_S16x8192_S16x8192) _) (whole_mm w p b j)

private theorem readCov_zero {S : Shape} {e : EltTy} (M : Memref sig .tc .vmem S e) (L : List (View.Piece (Elt Ideal) S e))
    {off : Fin S.rank → ℕ} (h : off = fun _ => 0) (inb : ∀ a, off a + S.size a ≤ S.size a) :
    M.view.readCov L (Rect.unit off S.size inb).toLoadRect = View.canon L :=
  (View.readCov_eq_canon' _ L _).trans (View.ld_unit_zero h inb (View.canon L))

variable (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (hc0 : ¬atFirst i) (hc1 : ¬atEven i) (hc2 : atOdd i) (hc3 : atLast i)
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) (xo : Vec Ideal S16x8192 .f32) (xkt : Vec Ideal S64x8192 .bf16) (xpa : Vec Ideal S512x8192 .bf16) (xwa : Vec Ideal S16x512 .bf16)

theorem last_pb (t : Fin 16) (ht : (i 0).val = t.val) :
    rd arg10 (runLast (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).2.1 = fun j => pBlk x1 x2 x3 xkt t (j 0) (j 1) := by
  unfold rd
  rw [View.read_writes_junk_eq_canon]
  funext j
  refine View.canon_apply_of_pieces (Val := Elt Ideal) (e := .bf16) (fun j : S512x8192.Idx => pBlk x1 x2 x3 xkt t (j 0) (j 1)) _ ?_ j (View.cover_of_tiledL (s := S512x8192) _ S512x1024.size (by sl_kernel_rfl) j)
  unfold runLast
  dsimp only
  sl_unfold_run_names
  simp only [View.readAt_eq_ld, harg2.read_unread, harg3.read_unread, harg4.read_unread, harg8.read_unread]
  intro p hp
  simp only [List.mem_cons, List.not_mem_nil, or_false] at hp
  rcases hp with rfl | rfl | rfl | rfl | rfl | rfl | rfl | rfl <;>
    exact pa_piece x1 x2 x3 xkt t _ (by decide) _ _ _ (fun r l => (pack_apply _ _).trans (expc_apply _ _ r l))
      (slab_query x1 x2 x3 i t ht (k0_off3_inb i hc2) inb_S64x128_S64x128_0_0 inb_S1x64_S1x64_0_0)
      (fun h l hl => ld_cols .bf16 xkt _ _ h l hl)

theorem last_wb (t : Fin 16) (ht : (i 0).val = t.val) :
    rd arg12 (runLast (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).2.2.1 = fun j => wBlk x0 x1 x2 x3 xkt t (j 0) (j 1) := by
  unfold rd
  rw [View.read_writes_junk_eq_canon]
  unfold runLast
  dsimp only
  sl_unfold_run_names
  simp only [View.readAt_eq_ld, harg1.read_unread, harg2.read_unread, harg3.read_unread, harg4.read_unread, harg8.read_unread]
  refine (View.canon_unit_zero (S := S16x512) hz2 inb_S16x512_S16x512_0_0 _).trans ?_
  funext j
  exact (congrArg _ (eq_ix2 j)).trans <| wa_gen x0 x1 x2 x3 xkt t _ _ _ _ _ _ _ _ _ _ _ _
    (slab_query x1 x2 x3 i t ht (k0_off3_inb i hc2) inb_S64x128_S64x128_0_0 inb_S1x64_S1x64_0_0)
    (ld_cols .bf16 xkt _ _) (ld_cols .bf16 xkt _ _) (ld_cols .bf16 xkt _ _) (ld_cols .bf16 xkt _ _)
    (ld_cols .bf16 xkt _ _) (ld_cols .bf16 xkt _ _) (ld_cols .bf16 xkt _ _) (ld_cols .bf16 xkt _ _)
    (ld_bel x0 i t ht (k0_off4_inb i hc2)) (j 0) (j 1)

theorem last_out (t : Fin 16) (ht : (i 0).val = t.val) :
    rd arg7 (runLast (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa).1 = fun j => consume (fun j' => consume xo xwa xpa (j' 0) (j' 1)) (fun j' => wBlk x0 x1 x2 x3 xkt t (j' 0) (j' 1)) (fun j' => pBlk x1 x2 x3 xkt t (j' 0) (j' 1)) (j 0) (j 1) := by
  have hpb := last_pb c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa t ht
  have hwb := last_wb c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo xkt xpa xwa t ht
  revert hpb hwb
  unfold rd
  simp only [View.read_writes_junk_eq_canon]
  unfold runLast
  dsimp only
  sl_unfold_run_names
  simp only [View.readAt_eq_ld, harg7.read_unread, harg9.read_unread, harg11.read_unread]
  unfold k0_pay57
  intro hpb hwb
  rw [View.canon_cons_unit_zero (S := S16x8192) hz2]
  funext j
  refine (congrArg _ (eq_ix2 j)).trans <| (pay7_apply _ _ _ (j 0) (j 1)).trans (congrArg₂ (· + ·) ?_ (Finset.sum_congr rfl fun r _ => congrArg₂ (· * ·)
    (congrFun ((readCov_zero arg12 _ hz2 _).trans hwb) _) (congrFun ((readCov_zero arg10 _ hz2 _).trans hpb) _)))
  refine (congrFun (readCov_zero arg7 _ hz2 _) _).trans (View.canon_apply_of_pieces (Val := Elt Ideal) (S := S16x8192) (e := .f32) (fun j => consume xo xwa xpa (j 0) (j 1)) _ ?_ _
    (View.cover_of_tiledL (s := S16x8192) _ ![16, 1024] (by sl_kernel_rfl) _))
  intro p hp
  simp only [List.mem_cons, List.not_mem_nil, or_false] at hp
  rcases hp with rfl | rfl | rfl | rfl | rfl | rfl | rfl | rfl <;>
    exact out_piece xo xwa xpa _ (by decide) _ _ _ _ (fun b l => outc_apply _ _ _ b l)
      (ld_cols .f32 xo _ _) (View.ld_unit_zero (Val := Elt Ideal) hz2 inb_S16x512_S16x512_0_0 xwa)
      (ld_cols .bf16 xpa _ _)

end Cert.KernelIdeal.Val

end
-- ==== Proof.Val.Inputs.lean ====
/- Each input block read at an index is the argument array there; each bias is its vector recast as a row or a column. -/
import proofs.«119842_g5935644803188_cont_9to1c4b_610_16_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem index0_zero : ∀ t : Fin cfg0.N, win0_0.index t (0 : Fin 2) = 0 ∧ win0_0.index t (1 : Fin 2) = 0 :=
  (by decide +kernel : ∀ t : Fin grid0.N, _)
theorem index1_zero : ∀ t : Fin cfg0.N, win0_1.index t (0 : Fin 2) = 0 ∧ win0_1.index t (1 : Fin 2) = 0 :=
  (by decide +kernel : ∀ t : Fin grid0.N, _)
theorem index2_zero : ∀ t : Fin cfg0.N, win0_2.index t (0 : Fin 2) = 0 ∧ win0_2.index t (1 : Fin 2) = 0 :=
  (by decide +kernel : ∀ t : Fin grid0.N, _)
theorem index3_zero : ∀ t : Fin cfg0.N, win0_3.index t (0 : Fin 2) = 0 ∧ win0_3.index t (1 : Fin 2) = 0 :=
  (by decide +kernel : ∀ t : Fin grid0.N, _)
theorem index4_zero : ∀ t : Fin cfg0.N, win0_4.index t (0 : Fin 2) = 0 ∧ win0_4.index t (1 : Fin 2) = 0 :=
  (by decide +kernel : ∀ t : Fin grid0.N, _)
theorem index5_zero : ∀ t : Fin cfg0.N, win0_5.index t (0 : Fin 2) = 0 ∧ win0_5.index t (1 : Fin 2) = 0 :=
  (by decide +kernel : ∀ t : Fin grid0.N, _)

theorem row_eq (c : Dev nD) :
    (V m c main_v0 : S1x64.Idx → EReal)
      = shapeCast S1x64 (m ((c.tc : Thread nD τ).loc main_arg5) : FVec Ideal S64 .f32) shapeCasts_S64_S1x64 := by
  dsimp only [Gen.V, Gen.hostOps0]
  after_results
  rfl

theorem col_eq (c : Dev nD) :
    (V m c main_v1 : S64x1.Idx → EReal)
      = shapeCast S64x1 (m ((c.tc : Thread nD τ).loc main_arg3) : FVec Ideal S64 .f32) shapeCasts_S64_S64x1 := by
  dsimp only [Gen.V, Gen.hostOps0]
  after_results
  rfl

theorem blk0_apply (c : Dev nD) (t : Fin cfg0.N) (b : Fin 16) (i : Fin 8192) :
    (iblk m c 0 t : Vec Ideal S16x8192 .f32) (ix2 b i) = (m ((c.tc : Thread nD τ).loc main_arg0) : FVec Ideal S16x8192 .f32) (ix2 b i) := by
  obtain ⟨e0, e1⟩ := index0_zero t
  show V m c main_arg0 (((cfg0.win 0).blk t).view.emb (ix2 b i)) = _
  rw [V_main_arg0]
  refine congrArg _ ?_
  funext a; apply Fin.ext
  match a with
  | ⟨0, _⟩ => show win0_0.index t (0 : Fin 2) * 16 + 1 * b.val = b.val; omega
  | ⟨1, _⟩ => show win0_0.index t (1 : Fin 2) * 8192 + 1 * i.val = i.val; omega

theorem blk1_apply (c : Dev nD) (t : Fin cfg0.N) (s : Fin 8192) (d : Fin 128) :
    (iblk m c 1 t : Vec Ideal S8192x128 .f32) (ix2 s d) = (m ((c.tc : Thread nD τ).loc main_arg1) : FVec Ideal S8192x128 .f32) (ix2 s d) := by
  obtain ⟨e0, e1⟩ := index1_zero t
  show V m c main_arg1 (((cfg0.win 1).blk t).view.emb (ix2 s d)) = _
  rw [V_main_arg1]
  refine congrArg _ ?_
  funext a; apply Fin.ext
  match a with
  | ⟨0, _⟩ => show win0_1.index t (0 : Fin 2) * 8192 + 1 * s.val = s.val; omega
  | ⟨1, _⟩ => show win0_1.index t (1 : Fin 2) * 128 + 1 * d.val = d.val; omega

theorem blk2_apply (c : Dev nD) (t : Fin cfg0.N) (h : Fin 64) (d : Fin 128) :
    (iblk m c 2 t : Vec Ideal S64x128 .f32) (ix2 h d) = (m ((c.tc : Thread nD τ).loc main_arg4) : FVec Ideal S64x128 .f32) (ix2 h d) := by
  obtain ⟨e0, e1⟩ := index2_zero t
  show V m c main_arg4 (((cfg0.win 2).blk t).view.emb (ix2 h d)) = _
  rw [V_main_arg4]
  refine congrArg _ ?_
  funext a; apply Fin.ext
  match a with
  | ⟨0, _⟩ => show win0_2.index t (0 : Fin 2) * 64 + 1 * h.val = h.val; omega
  | ⟨1, _⟩ => show win0_2.index t (1 : Fin 2) * 128 + 1 * d.val = d.val; omega

theorem blk3_apply (c : Dev nD) (t : Fin cfg0.N) (h : Fin 64) :
    (iblk m c 3 t : Vec Ideal S1x64 .f32) (ix2 0 h) = (m ((c.tc : Thread nD τ).loc main_arg5) : FVec Ideal S64 .f32) (ix1 h) := by
  obtain ⟨e0, e1⟩ := index3_zero t
  show (V m c main_v0 : S1x64.Idx → EReal) (((cfg0.win 3).blk t).view.emb (ix2 0 h)) = _
  rw [row_eq]
  refine shapeCast_apply _ _ _ _ ?_
  show (S64.rowMajor (ix1 h)).val = (S1x64.rowMajor (((cfg0.win 3).blk t).view.emb (ix2 0 h))).val
  rw [Shape.rowMajor_val_one, Shape.rowMajor_val_two]
  show h.val = (win0_3.index t (0 : Fin 2) * 1 + 1 * 0) * 64 + (win0_3.index t (1 : Fin 2) * 64 + 1 * h.val)
  omega

theorem blk4_apply (c : Dev nD) (t : Fin cfg0.N) (h : Fin 64) (d : Fin 128) :
    (iblk m c 4 t : Vec Ideal S64x128 .f32) (ix2 h d) = (m ((c.tc : Thread nD τ).loc main_arg2) : FVec Ideal S64x128 .f32) (ix2 h d) := by
  obtain ⟨e0, e1⟩ := index4_zero t
  show V m c main_arg2 (((cfg0.win 4).blk t).view.emb (ix2 h d)) = _
  rw [V_main_arg2]
  refine congrArg _ ?_
  funext a; apply Fin.ext
  match a with
  | ⟨0, _⟩ => show win0_4.index t (0 : Fin 2) * 64 + 1 * h.val = h.val; omega
  | ⟨1, _⟩ => show win0_4.index t (1 : Fin 2) * 128 + 1 * d.val = d.val; omega

theorem blk5_apply (c : Dev nD) (t : Fin cfg0.N) (h : Fin 64) :
    (iblk m c 5 t : Vec Ideal S64x1 .f32) (ix2 h 0) = (m ((c.tc : Thread nD τ).loc main_arg3) : FVec Ideal S64 .f32) (ix1 h) := by
  obtain ⟨e0, e1⟩ := index5_zero t
  show (V m c main_v1 : S64x1.Idx → EReal) (((cfg0.win 5).blk t).view.emb (ix2 h 0)) = _
  rw [col_eq]
  refine shapeCast_apply _ _ _ _ ?_
  show (S64.rowMajor (ix1 h)).val = (S64x1.rowMajor (((cfg0.win 5).blk t).view.emb (ix2 h 0))).val
  rw [Shape.rowMajor_val_one, Shape.rowMajor_val_two]
  show h.val = (win0_5.index t (0 : Fin 2) * 64 + 1 * h.val) * 1 + (win0_5.index t (1 : Fin 2) * 1 + 1 * 0)
  omega

end Cert.KernelIdeal.Val

end
-- ==== Proof.Algebra.lean ====
/- Sums over states regroup by chunks and by slabs; on real inputs the row shift cancels in the softmax quotient. -/
import proofs.«119842_g5935644803188_cont_9to1c4b_610_16_alg».proof.Proof.Spec

noncomputable section

open scoped BigOperators

namespace Cert.Spec

open Idealize.ShloMosaic

theorem coe_sum_real {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem sum_chunks_flat (f : Fin 8192 → EReal) :
    ∑ k : Fin 8, ∑ l : Fin 1024, f (chunkIdx k l) = ∑ j : Fin 8192, f j := by
  rw [← Fintype.sum_prod_type (f := fun p : Fin 8 × Fin 1024 => f (chunkIdx p.1 p.2))]
  refine Fintype.sum_equiv (finProdFinEquiv : Fin 8 × Fin 1024 ≃ Fin (8 * 1024)) _ _ ?_
  rintro ⟨k, l⟩
  congr 1
  apply Fin.ext
  simp only [chunkIdx, finProdFinEquiv_apply_val]
  omega

theorem sum_slabs_flat (f : Fin 8192 → EReal) :
    ∑ s : Fin 16, ∑ r : Fin 512, f (slabIdx s r) = ∑ j : Fin 8192, f j := by
  rw [← Fintype.sum_prod_type (f := fun p : Fin 16 × Fin 512 => f (slabIdx p.1 p.2))]
  refine Fintype.sum_equiv (finProdFinEquiv : Fin 16 × Fin 512 ≃ Fin (16 * 512)) _ _ ?_
  rintro ⟨s, r⟩
  congr 1
  apply Fin.ext
  simp only [slabIdx, finProdFinEquiv_apply_val]
  omega

theorem fold_max_real {ι : Type*} (s : Finset ι) (hs : s.Nonempty) (g : ι → ℝ) :
    ∃ r : ℝ, s.fold max ⊥ (fun j => (g j : EReal)) = (r : EReal) := by
  induction hs using Finset.Nonempty.cons_induction with
  | singleton a => exact ⟨g a, by rw [Finset.fold_singleton]; exact max_eq_left bot_le⟩
  | cons a s ha hs ih =>
    obtain ⟨r, hr⟩ := ih
    rw [Finset.fold_cons, hr]
    rcases le_total (g a) r with h | h
    · exact ⟨r, max_eq_right (EReal.coe_le_coe_iff.2 h)⟩
    · exact ⟨g a, max_eq_left (EReal.coe_le_coe_iff.2 h)⟩

theorem sum_chunks (f : Fin 8192 → EReal) :
    ((((((((0 : EReal) + ∑ l : Fin 1024, f (chunkIdx 0 l)) + ∑ l : Fin 1024, f (chunkIdx 1 l)) + ∑ l : Fin 1024, f (chunkIdx 2 l))
      + ∑ l : Fin 1024, f (chunkIdx 3 l)) + ∑ l : Fin 1024, f (chunkIdx 4 l)) + ∑ l : Fin 1024, f (chunkIdx 5 l))
      + ∑ l : Fin 1024, f (chunkIdx 6 l)) + ∑ l : Fin 1024, f (chunkIdx 7 l) = ∑ j : Fin 8192, f j := by
  rw [← sum_chunks_flat, Fin.sum_univ_eight, zero_add]

section
variable (bel : Fin 16 → Fin 8192 → EReal) (emb : Fin 8192 → Fin 128 → EReal)
  (wq : Fin 64 → Fin 128 → EReal) (bq : Fin 64 → EReal) (wk : Fin 64 → Fin 128 → EReal) (bk : Fin 64 → EReal)

theorem accOut_succ (n : ℕ) (h : n < 16) (b : Fin 16) (j : Fin 8192) :
    accOut bel emb wq bq wk bk (n + 1) b j = accOut bel emb wq bq wk bk n b j + slabTerm bel emb wq bq wk bk ⟨n, h⟩ b j := by
  show accOut bel emb wq bq wk bk n b j + (if h : n < 16 then slabTerm bel emb wq bq wk bk ⟨n, h⟩ b j else 0) = _
  rw [dif_pos h]

theorem accOut_eq_sum_range (n : ℕ) (b : Fin 16) (j : Fin 8192) :
    accOut bel emb wq bq wk bk n b j
      = ∑ s ∈ Finset.range n, (if h : s < 16 then slabTerm bel emb wq bq wk bk ⟨s, h⟩ b j else 0) := by
  induction n with
  | zero => rw [accOut, Finset.range_zero, Finset.sum_empty]
  | succ n ih => rw [accOut, Finset.sum_range_succ, ← ih]

theorem accOut_sixteen (b : Fin 16) (j : Fin 8192) :
    accOut bel emb wq bq wk bk 16 b j = kout bel emb wq bq wk bk b j := by
  rw [accOut_eq_sum_range, Finset.sum_range, kout,
    ← sum_slabs_flat (fun i => wgt bel emb wq bq wk bk b i * pexp emb wq bq wk bk i j)]
  refine Finset.sum_congr rfl fun s _ => ?_
  rw [dif_pos s.is_lt]
  rfl

theorem logits_real (hemb : ∀ s d, ∃ r : ℝ, emb s d = (r : EReal)) (hwq : ∀ h d, ∃ r : ℝ, wq h d = (r : EReal))
    (hbq : ∀ h, ∃ r : ℝ, bq h = (r : EReal)) (hwk : ∀ h d, ∃ r : ℝ, wk h d = (r : EReal))
    (hbk : ∀ h, ∃ r : ℝ, bk h = (r : EReal)) :
    ∃ L : Fin 8192 → Fin 8192 → ℝ, ∀ i j,
      logit emb wq bq wk bk i j = (L i j : EReal) ∧ rlogit emb wq bq wk bk i j = (L i j : EReal) := by
  choose E hE using hemb
  choose Wq hWq using hwq
  choose Bq hBq using hbq
  choose Wk hWk using hwk
  choose Bk hBk using hbk
  refine ⟨fun i j => ∑ h : Fin 64, ((∑ d : Fin 128, E i d * Wq h d) + Bq h) * ((∑ d : Fin 128, Wk h d * E j d) + Bk h),
    fun i j => ⟨?_, ?_⟩⟩
  · simp only [logit, qry, keyT, hE, hWq, hBq, hWk, hBk, ← EReal.coe_mul, coe_sum_real, ← EReal.coe_add]
  · simp only [rlogit, qry, rkey, hE, hWq, hBq, hWk, hBk, ← EReal.coe_mul, coe_sum_real, ← EReal.coe_add]
    congr 1
    refine Finset.sum_congr rfl fun h _ => ?_
    congr 2
    exact Finset.sum_congr rfl fun d _ => mul_comm _ _

theorem rmax_real (hemb : ∀ s d, ∃ r : ℝ, emb s d = (r : EReal)) (hwq : ∀ h d, ∃ r : ℝ, wq h d = (r : EReal)) (hbq : ∀ h, ∃ r : ℝ, bq h = (r : EReal))
    (hwk : ∀ h d, ∃ r : ℝ, wk h d = (r : EReal)) (hbk : ∀ h, ∃ r : ℝ, bk h = (r : EReal)) (i : Fin 8192) :
    ∃ r : ℝ, rmax emb wq bq wk bk i = (r : EReal) := by
  obtain ⟨L, hL⟩ := logits_real emb wq bq wk bk hemb hwq hbq hwk hbk
  obtain ⟨r, hr⟩ := fold_max_real Finset.univ Finset.univ_nonempty (fun j => L i j)
  refine ⟨r, ?_⟩
  have hfun : (fun j => rlogit emb wq bq wk bk i j) = fun j => (L i j : EReal) := funext fun j => (hL i j).2
  rw [rmax, hfun, hr]
  exact max_eq_right bot_le

theorem kout_eq_rout (hbel : ∀ b i, ∃ r : ℝ, bel b i = (r : EReal)) (hemb : ∀ s d, ∃ r : ℝ, emb s d = (r : EReal))
    (hwq : ∀ h d, ∃ r : ℝ, wq h d = (r : EReal)) (hbq : ∀ h, ∃ r : ℝ, bq h = (r : EReal))
    (hwk : ∀ h d, ∃ r : ℝ, wk h d = (r : EReal)) (hbk : ∀ h, ∃ r : ℝ, bk h = (r : EReal))
    (mx : Fin 8192 → EReal) (hmx : ∀ i, ∃ r : ℝ, mx i = (r : EReal)) (b : Fin 16) (j : Fin 8192) :
    kout bel emb wq bq wk bk b j = rout bel emb wq bq wk bk mx b j := by
  obtain ⟨L, hL⟩ := logits_real emb wq bq wk bk hemb hwq hbq hwk hbk
  choose B hB using hbel
  choose M hM using hmx
  have hZ : ∀ i, 0 < ∑ j : Fin 8192, Real.exp (L i j) := fun i =>
    Finset.sum_pos (fun j _ => Real.exp_pos _) Finset.univ_nonempty
  have hZ' : ∀ i, 0 < ∑ j : Fin 8192, Real.exp (L i j - M i) := fun i =>
    Finset.sum_pos (fun j _ => Real.exp_pos _) Finset.univ_nonempty
  have hpexp : ∀ i j, pexp emb wq bq wk bk i j = (Real.exp (L i j) : EReal) := fun i j => by
    rw [pexp, (hL i j).1, Ideal.exp_coe]
  have hrowsum : ∀ i, rowsum emb wq bq wk bk i = ((∑ j : Fin 8192, Real.exp (L i j) : ℝ) : EReal) := fun i => by
    simp only [rowsum, hpexp, coe_sum_real]
  have hwgt : ∀ b i, wgt bel emb wq bq wk bk b i = ((B b i * (1 / ∑ j : Fin 8192, Real.exp (L i j)) : ℝ) : EReal) :=
    fun b i => by rw [wgt, hrowsum, hB, Ideal.div_coe (hZ i).ne', ← EReal.coe_mul]
  have hrexp : ∀ i j, rexp emb wq bq wk bk mx i j = (Real.exp (L i j - M i) : EReal) := fun i j => by
    rw [rexp, (hL i j).2, hM, ← EReal.coe_sub, Ideal.exp_coe]
  have hrsum : ∀ i, rsum emb wq bq wk bk mx i = ((∑ j : Fin 8192, Real.exp (L i j - M i) : ℝ) : EReal) := fun i => by
    simp only [rsum, hrexp, coe_sum_real]
  have hrsoft : ∀ i j, rsoft emb wq bq wk bk mx i j
      = ((Real.exp (L i j - M i) * (1 / ∑ j : Fin 8192, Real.exp (L i j - M i)) : ℝ) : EReal) := fun i j => by
    rw [rsoft, hrsum, hrexp, Ideal.div_coe (hZ' i).ne', ← EReal.coe_mul]
  simp only [kout, rout, hwgt, hpexp, hB, hrsoft, ← EReal.coe_mul, coe_sum_real]
  congr 1
  refine Finset.sum_congr rfl fun i _ => ?_
  have hfac : ∑ j : Fin 8192, Real.exp (L i j - M i) = (∑ j : Fin 8192, Real.exp (L i j)) * Real.exp (-(M i)) := by
    rw [Finset.sum_mul]
    exact Finset.sum_congr rfl fun j _ => by rw [sub_eq_add_neg, Real.exp_add]
  rw [hfac, sub_eq_add_neg, Real.exp_add]
  have h1 : (∑ j : Fin 8192, Real.exp (L i j)) ≠ 0 := (hZ i).ne'
  have h2 : Real.exp (-(M i)) ≠ 0 := (Real.exp_pos _).ne'
  field_simp

end

end Cert.Spec

end
-- ==== Proof.Val.Invariant.lean ====
/- After point n: the key table, slab n's exponentials and weights, and the result summed over slabs 0 … n-1 (all sixteen
   after the last point). By induction over the points. -/
import proofs.«119842_g5935644803188_cont_9to1c4b_610_16_alg».proof.Proof.Val.First
import proofs.«119842_g5935644803188_cont_9to1c4b_610_16_alg».proof.Proof.Val.Even
import proofs.«119842_g5935644803188_cont_9to1c4b_610_16_alg».proof.Proof.Val.Odd
import proofs.«119842_g5935644803188_cont_9to1c4b_610_16_alg».proof.Proof.Val.Last
import proofs.«119842_g5935644803188_cont_9to1c4b_610_16_alg».proof.Proof.Val.Inputs
import proofs.«119842_g5935644803188_cont_9to1c4b_610_16_alg».proof.Proof.Algebra

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Body Cert.Spec

variable (m : (ℓ : Loc nD τ sig) → Buf (Elt Ideal) ℓ)

abbrev abel (c : Dev nD) : Fin 16 → Fin 8192 → EReal := fun b i => (m ((c.tc : Thread nD τ).loc main_arg0) : FVec Ideal S16x8192 .f32) (ix2 b i)
abbrev aemb (c : Dev nD) : Fin 8192 → Fin 128 → EReal := fun s d => (m ((c.tc : Thread nD τ).loc main_arg1) : FVec Ideal S8192x128 .f32) (ix2 s d)
abbrev awq (c : Dev nD) : Fin 64 → Fin 128 → EReal := fun h d => (m ((c.tc : Thread nD τ).loc main_arg4) : FVec Ideal S64x128 .f32) (ix2 h d)
abbrev abq (c : Dev nD) : Fin 64 → EReal := fun h => (m ((c.tc : Thread nD τ).loc main_arg5) : FVec Ideal S64 .f32) (ix1 h)
abbrev awk (c : Dev nD) : Fin 64 → Fin 128 → EReal := fun h d => (m ((c.tc : Thread nD τ).loc main_arg2) : FVec Ideal S64x128 .f32) (ix2 h d)
abbrev abk (c : Dev nD) : Fin 64 → EReal := fun h => (m ((c.tc : Thread nD τ).loc main_arg3) : FVec Ideal S64 .f32) (ix1 h)

theorem coords0 : ∀ t : Fin cfg0.N, ((grid0.coords t) 0).val = t.val :=
  (by decide +kernel : ∀ t : Fin grid0.N, ((grid0.coords t) 0).val = t.val)

theorem ktForm_blk (c : Dev nD) (t : Fin cfg0.N) (h : Fin 64) (s : Fin 8192) :
    ktForm (iblk m c 4 t) (iblk m c 1 t) (iblk m c 5 t) h s = keyT (aemb m c) (awk m c) (abk m c) h s := by
  unfold ktForm keyT
  rw [blk5_apply m c t h]
  exact congrArg (· + _) (Finset.sum_congr rfl fun d _ => by rw [blk4_apply m c t h d, blk1_apply m c t s d])

theorem qBlk_blk (c : Dev nD) (t : Fin cfg0.N) (ts : Fin 16) (r : Fin 512) (h : Fin 64) :
    qBlk (iblk m c 1 t) (iblk m c 2 t) (iblk m c 3 t) ts r h = qry (aemb m c) (awq m c) (abq m c) (slabIdx ts r) h := by
  unfold qBlk qry
  rw [blk3_apply m c t h]
  exact congrArg (· + _) (Finset.sum_congr rfl fun d _ => by rw [blk1_apply m c t (slabIdx ts r) d, blk2_apply m c t h d])

theorem pBlk_blk (c : Dev nD) (t : Fin cfg0.N) (kt : Vec Ideal S64x8192 .bf16)
    (hkt : kt = fun j => keyT (aemb m c) (awk m c) (abk m c) (j 0) (j 1)) (ts : Fin 16) (r : Fin 512) (j : Fin 8192) :
    pBlk (iblk m c 1 t) (iblk m c 2 t) (iblk m c 3 t) kt ts r j = pexp (aemb m c) (awq m c) (abq m c) (awk m c) (abk m c) (slabIdx ts r) j := by
  unfold pBlk pexp logit
  subst hkt
  exact congrArg Ideal.exp (Finset.sum_congr rfl fun h _ => by rw [qBlk_blk m c t ts r h])

theorem zBlk_blk (c : Dev nD) (t : Fin cfg0.N) (kt : Vec Ideal S64x8192 .bf16)
    (hkt : kt = fun j => keyT (aemb m c) (awk m c) (abk m c) (j 0) (j 1)) (ts : Fin 16) (r : Fin 512) :
    zBlk (iblk m c 1 t) (iblk m c 2 t) (iblk m c 3 t) kt ts r = rowsum (aemb m c) (awq m c) (abq m c) (awk m c) (abk m c) (slabIdx ts r) := by
  unfold zBlk rowsum
  simp only [pBlk_blk m c t kt hkt]
  exact sum_chunks (fun j => pexp (aemb m c) (awq m c) (abq m c) (awk m c) (abk m c) (slabIdx ts r) j)

theorem wBlk_blk (c : Dev nD) (t : Fin cfg0.N) (kt : Vec Ideal S64x8192 .bf16)
    (hkt : kt = fun j => keyT (aemb m c) (awk m c) (abk m c) (j 0) (j 1)) (ts : Fin 16) (b : Fin 16) (r : Fin 512) :
    wBlk (iblk m c 0 t) (iblk m c 1 t) (iblk m c 2 t) (iblk m c 3 t) kt ts b r = wgt (abel m c) (aemb m c) (awq m c) (abq m c) (awk m c) (abk m c) b (slabIdx ts r) := by
  unfold wBlk wgt
  rw [blk0_apply m c t b (slabIdx ts r), zBlk_blk m c t kt hkt ts r]

theorem consume_slab (c : Dev nD) (p : ℕ) (hp : p < 16) (o : Vec Ideal S16x8192 .f32) (w : Vec Ideal S16x512 .bf16) (q : Vec Ideal S512x8192 .bf16)
    (ho : o = fun j => accOut (abel m c) (aemb m c) (awq m c) (abq m c) (awk m c) (abk m c) p (j 0) (j 1))
    (hw : w = fun j => wgt (abel m c) (aemb m c) (awq m c) (abq m c) (awk m c) (abk m c) (j 0) (slabIdx ⟨p, hp⟩ (j 1)))
    (hq : q = fun j => pexp (aemb m c) (awq m c) (abq m c) (awk m c) (abk m c) (slabIdx ⟨p, hp⟩ (j 0)) (j 1)) (b : Fin 16) (j : Fin 8192) :
    consume o w q b j = accOut (abel m c) (aemb m c) (awq m c) (abq m c) (awk m c) (abk m c) (p + 1) b j := by
  subst ho hw hq
  rw [accOut_succ _ _ _ _ _ _ p hp b j]
  rfl

structure Inv (c : Dev nD) (n : ℕ) (hn : n < 16) (s : St Ideal) : Prop where
  kt : s.kt = fun j => keyT (aemb m c) (awk m c) (abk m c) (j 0) (j 1)
  ev : n % 2 = 0 → s.pa = (fun j => pexp (aemb m c) (awq m c) (abq m c) (awk m c) (abk m c) (slabIdx ⟨n, hn⟩ (j 0)) (j 1))
        ∧ s.wa = (fun j => wgt (abel m c) (aemb m c) (awq m c) (abq m c) (awk m c) (abk m c) (j 0) (slabIdx ⟨n, hn⟩ (j 1)))
  od : n % 2 = 1 → s.pb = (fun j => pexp (aemb m c) (awq m c) (abq m c) (awk m c) (abk m c) (slabIdx ⟨n, hn⟩ (j 0)) (j 1))
        ∧ s.wb = (fun j => wgt (abel m c) (aemb m c) (awq m c) (abq m c) (awk m c) (abk m c) (j 0) (slabIdx ⟨n, hn⟩ (j 1)))
  out : s.out = fun j => accOut (abel m c) (aemb m c) (awq m c) (abq m c) (awk m c) (abk m c) (if n = 15 then 16 else n) (j 0) (j 1)

theorem lt16 (t : Fin cfg0.N) : t.val < 16 := lt_of_lt_of_eq t.isLt N16

theorem inv_first (c : Dev nD) (t : Fin cfg0.N) (hz : t.val = 0) (h0 : atFirst (grid0.coords t)) (h1 : atEven (grid0.coords t)) (h2 : ¬atOdd (grid0.coords t)) (h3 : ¬atLast (grid0.coords t)) :
    Inv m c t.val (lt16 t) (stFirst m c t h0 h1 h2 h3) := by
  have hkt : (stFirst m c t h0 h1 h2 h3).kt = fun j => keyT (aemb m c) (awk m c) (abk m c) (j 0) (j 1) := by
    dsimp only [stFirst]
    exact (first_kt ..).trans (funext fun j => ktForm_blk m c t (j 0) (j 1))
  have hkt' : (fun j : S64x8192.Idx => ktForm (iblk m c 4 t) (iblk m c 1 t) (iblk m c 5 t) (j 0) (j 1)) = fun j => keyT (aemb m c) (awk m c) (abk m c) (j 0) (j 1) :=
    funext fun j => ktForm_blk m c t (j 0) (j 1)
  refine ⟨hkt, fun _ => ⟨?_, ?_⟩, fun h => absurd h (by omega), ?_⟩
  · dsimp only [stFirst]
    refine (first_pa (t := ⟨t.val, lt16 t⟩) (ht := coords0 t) ..).trans (funext fun j => ?_)
    exact pBlk_blk m c t _ hkt' ⟨t.val, lt16 t⟩ (j 0) (j 1)
  · dsimp only [stFirst]
    refine (first_wa (t := ⟨t.val, lt16 t⟩) (ht := coords0 t) ..).trans (funext fun j => ?_)
    exact wBlk_blk m c t _ hkt' ⟨t.val, lt16 t⟩ (j 0) (j 1)
  · dsimp only [stFirst]
    refine (first_out ..).trans (funext fun j => ?_)
    rw [if_neg (by omega), hz]; rfl

theorem inv_even (c : Dev nD) (t : Fin cfg0.N) (he : t.val % 2 = 0) (hz : t.val ≠ 0) (h0 : ¬atFirst (grid0.coords t)) (h1 : atEven (grid0.coords t)) (h2 : ¬atOdd (grid0.coords t)) (h3 : ¬atLast (grid0.coords t))
    (s : St Ideal) (hp : t.val - 1 < 16) (hs : Inv m c (t.val - 1) hp s) :
    Inv m c t.val (lt16 t) (stEven m c t h0 h1 h2 h3 s) := by
  have hN := lt16 t
  obtain ⟨hpb, hwb⟩ := hs.od (by omega)
  have hso := hs.out; rw [if_neg (by omega)] at hso
  refine ⟨(by dsimp only [stEven]; exact hs.kt), fun _ => ⟨?_, ?_⟩, fun h => absurd h (by omega), ?_⟩
  · dsimp only [stEven]
    refine (even_pa (t := ⟨t.val, lt16 t⟩) (ht := coords0 t) ..).trans (funext fun j => ?_)
    exact pBlk_blk m c t _ hs.kt ⟨t.val, lt16 t⟩ (j 0) (j 1)
  · dsimp only [stEven]
    refine (even_wa (t := ⟨t.val, lt16 t⟩) (ht := coords0 t) ..).trans (funext fun j => ?_)
    exact wBlk_blk m c t _ hs.kt ⟨t.val, lt16 t⟩ (j 0) (j 1)
  · dsimp only [stEven]
    refine (even_out ..).trans (funext fun j => ?_)
    rw [if_neg (by omega), consume_slab m c (t.val - 1) hp s.out s.wb s.pb hso hwb hpb (j 0) (j 1)]
    rw [show t.val - 1 + 1 = t.val from by omega]

theorem inv_odd (c : Dev nD) (t : Fin cfg0.N) (he : ¬t.val % 2 = 0) (hl : ¬t.val = 15) (h0 : ¬atFirst (grid0.coords t)) (h1 : ¬atEven (grid0.coords t)) (h2 : atOdd (grid0.coords t)) (h3 : ¬atLast (grid0.coords t))
    (s : St Ideal) (hp : t.val - 1 < 16) (hs : Inv m c (t.val - 1) hp s) :
    Inv m c t.val (lt16 t) (stOdd m c t h0 h1 h2 h3 s) := by
  have hN := lt16 t
  obtain ⟨hpa, hwa⟩ := hs.ev (by omega)
  have hso := hs.out; rw [if_neg (by omega)] at hso
  refine ⟨(by dsimp only [stOdd]; exact hs.kt), fun h => absurd h he, fun _ => ⟨?_, ?_⟩, ?_⟩
  · dsimp only [stOdd]
    refine (odd_pb (t := ⟨t.val, lt16 t⟩) (ht := coords0 t) ..).trans (funext fun j => ?_)
    exact pBlk_blk m c t _ hs.kt ⟨t.val, lt16 t⟩ (j 0) (j 1)
  · dsimp only [stOdd]
    refine (odd_wb (t := ⟨t.val, lt16 t⟩) (ht := coords0 t) ..).trans (funext fun j => ?_)
    exact wBlk_blk m c t _ hs.kt ⟨t.val, lt16 t⟩ (j 0) (j 1)
  · dsimp only [stOdd]
    refine (odd_out ..).trans (funext fun j => ?_)
    rw [if_neg hl, consume_slab m c (t.val - 1) hp s.out s.wa s.pa hso hwa hpa (j 0) (j 1)]
    rw [show t.val - 1 + 1 = t.val from by omega]

theorem inv_last (c : Dev nD) (t : Fin cfg0.N) (he : ¬t.val % 2 = 0) (hl : t.val = 15) (h0 : ¬atFirst (grid0.coords t)) (h1 : ¬atEven (grid0.coords t)) (h2 : atOdd (grid0.coords t)) (h3 : atLast (grid0.coords t))
    (s : St Ideal) (hp : t.val - 1 < 16) (hs : Inv m c (t.val - 1) hp s) :
    Inv m c t.val (lt16 t) (stLast m c t h0 h1 h2 h3 s) := by
  have hN := lt16 t
  obtain ⟨hpa, hwa⟩ := hs.ev (by omega)
  have hso := hs.out; rw [if_neg (by omega)] at hso
  have hpb : (stLast m c t h0 h1 h2 h3 s).pb = fun j => pexp (aemb m c) (awq m c) (abq m c) (awk m c) (abk m c) (slabIdx ⟨t.val, lt16 t⟩ (j 0)) (j 1) := by
    dsimp only [stLast]
    refine (last_pb (t := ⟨t.val, lt16 t⟩) (ht := coords0 t) ..).trans (funext fun j => ?_)
    exact pBlk_blk m c t _ hs.kt ⟨t.val, lt16 t⟩ (j 0) (j 1)
  have hwb : (stLast m c t h0 h1 h2 h3 s).wb = fun j => wgt (abel m c) (aemb m c) (awq m c) (abq m c) (awk m c) (abk m c) (j 0) (slabIdx ⟨t.val, lt16 t⟩ (j 1)) := by
    dsimp only [stLast]
    refine (last_wb (t := ⟨t.val, lt16 t⟩) (ht := coords0 t) ..).trans (funext fun j => ?_)
    exact wBlk_blk m c t _ hs.kt ⟨t.val, lt16 t⟩ (j 0) (j 1)
  refine ⟨(by dsimp only [stLast]; exact hs.kt), fun h => absurd h he, fun _ => ⟨hpb, hwb⟩, ?_⟩
  dsimp only [stLast]
  refine (last_out (t := ⟨t.val, lt16 t⟩) (ht := coords0 t) ..).trans (funext fun j => ?_)
  rw [if_pos hl]
  have h1' : (fun j' : S16x8192.Idx => consume s.out s.wa s.pa (j' 0) (j' 1)) = fun j' => accOut (abel m c) (aemb m c) (awq m c) (abq m c) (awk m c) (abk m c) (t.val - 1 + 1) (j' 0) (j' 1) :=
    funext fun j' => consume_slab m c (t.val - 1) hp s.out s.wa s.pa hso hwa hpa (j' 0) (j' 1)
  have h2' : (fun j' : S16x512.Idx => wBlk (iblk m c 0 t) (iblk m c 1 t) (iblk m c 2 t) (iblk m c 3 t) s.kt ⟨t.val, lt16 t⟩ (j' 0) (j' 1)) = fun j' => wgt (abel m c) (aemb m c) (awq m c) (abq m c) (awk m c) (abk m c) (j' 0) (slabIdx ⟨t.val, lt16 t⟩ (j' 1)) :=
    funext fun j' => wBlk_blk m c t _ hs.kt ⟨t.val, lt16 t⟩ (j' 0) (j' 1)
  have h3' : (fun j' : S512x8192.Idx => pBlk (iblk m c 1 t) (iblk m c 2 t) (iblk m c 3 t) s.kt ⟨t.val, lt16 t⟩ (j' 0) (j' 1)) = fun j' => pexp (aemb m c) (awq m c) (abq m c) (awk m c) (abk m c) (slabIdx ⟨t.val, lt16 t⟩ (j' 0)) (j' 1) :=
    funext fun j' => pBlk_blk m c t _ hs.kt ⟨t.val, lt16 t⟩ (j' 0) (j' 1)
  rw [show t.val - 1 + 1 = t.val from by omega] at h1'
  rw [consume_slab m c t.val (lt16 t) _ _ _ h1' h2' h3' (j 0) (j 1)]
  rw [hl]

theorem inv_all (c : Dev nD) : ∀ (n : ℕ) (hn : n < cfg0.N), Inv m c n (lt_of_lt_of_eq hn N16) (stAt m c n hn) := by
  intro n
  induction n using Nat.strong_induction_on with
  | _ n ih =>
    intro hn
    have hN : n < 16 := lt_of_lt_of_eq hn N16
    let t : Fin cfg0.N := ⟨n, hn⟩
    by_cases hz : n = 0
    · obtain ⟨h0, h1, h2, h3⟩ := kind_first t hz
      rw [show stAt m c n hn = stAt m c t.val t.isLt from rfl, stAt_first m c t hz h0 h1 h2 h3]
      exact inv_first m c t hz h0 h1 h2 h3
    have hp : n - 1 < cfg0.N := Nat.lt_of_le_of_lt (Nat.sub_le _ _) hn
    have ihp := ih (n - 1) (by omega) hp
    by_cases he : n % 2 = 0
    · obtain ⟨h0, h1, h2, h3⟩ := kind_even t he hz
      rw [show stAt m c n hn = stAt m c t.val t.isLt from rfl, stAt_even m c t he hz h0 h1 h2 h3]
      exact inv_even m c t he hz h0 h1 h2 h3 _ _ ihp
    by_cases hl : n = 15
    · obtain ⟨h0, h1, h2, h3⟩ := kind_last t he hl
      rw [show stAt m c n hn = stAt m c t.val t.isLt from rfl, stAt_last m c t he hl h0 h1 h2 h3]
      exact inv_last m c t he hl h0 h1 h2 h3 _ _ ihp
    · obtain ⟨h0, h1, h2, h3⟩ := kind_odd t he hl
      rw [show stAt m c n hn = stAt m c t.val t.isLt from rfl, stAt_odd m c t he hl h0 h1 h2 h3]
      exact inv_odd m c t he hl h0 h1 h2 h3 _ _ ihp

theorem out_final (c : Dev nD) (h15 : 15 < cfg0.N) :
    (stAt m c 15 h15).out = fun j => kout (abel m c) (aemb m c) (awq m c) (abq m c) (awk m c) (abk m c) (j 0) (j 1) := by
  refine ((inv_all m c 15 h15).out).trans (funext fun j => ?_)
  rw [if_pos rfl]
  exact accOut_sixteen _ _ _ _ _ _ (j 0) (j 1)

end Cert.KernelIdeal.Val

end
-- ==== Proof.Val.Result.lean ====
/- The result array after the run is what the last point leaves. -/
import proofs.«119842_g5935644803188_cont_9to1c4b_610_16_alg».proof.Proof.Body.Data
import Idealize.ShloMosaic.Lib.Pipeline.Value
import Idealize.ShloMosaic.PureOps.Ideal

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

theorem lt15 : 15 < cfg0.N := by rw [N16]; decide

abbrev tLast : Fin cfg0.N := ⟨15, lt15⟩

theorem flushed6_eq (c : Dev nD) (t : Fin cfg0.N) (hf : (cfg0.win 6).flush t = true) :
    (dats m 0 c).flushed 6 t = ((cfg0.win 6).blk t).view.read (Elt Ideal) (stAt m c 15 lt15).out := by
  have hN : cfg0.N = 16 := N16
  have h1 : t.val = 15 := by have := (flush0_6 t).mp hf; have := t.isLt; omega
  obtain rfl : t = tLast := Fin.ext h1
  show (cfg0.win 6).cut (grid0.coords tLast) ((dats m 0 c).after 6 tLast) = _
  rw [after_6]
  have hz' : (fun a => win0_6.index tLast a * main_v2.ty.shape.size a) = fun _ => 0 :=
    funext fun a => by fin_cases a <;> decide +kernel
  exact (Memref.read_access_unit_zero (Elt Ideal) main_v2 hz' (fun a => by rw [congrFun hz' a]; simp)
    (stAt m c 15 lt15).out).symm

theorem final6 (c : Dev nD) : (dats m 0 c).arrAt 6 cfg0.N = (stAt m c 15 lt15).out :=
  (dats m 0 c).arrAt_eq_of_cover 6 (stAt m c 15 lt15).out (flushed6_eq m c) fun i =>
    ⟨tLast, (flush0_6 tLast).mpr rfl, by
      show i ∈ ((View.whole main_v2).slice (win0_6.rect tLast)).set
      rw [View.set_slice_whole, Rect.mem_set_unit]
      intro a
      have h0 : (i 0 : Nat) < 16 := (i 0).isLt
      have h1 : (i 1 : Nat) < 8192 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 16 from by decide +kernel]; omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 8192 from by decide +kernel]; omega⟩

theorem run_result : θ_run defs (onTc (τ := τ) (main (F := Ideal))) ⟨m, fun _ => 0, ρ⟩ (fun r => ∀ c : Dev nD,
      r.2.mem ((c.tc : Thread nD τ).loc main_v2) = (stAt m c 15 lt15).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩)
    (run_main m ρ)

end Cert.KernelIdeal.Val

end
-- ==== Proof.RefValue.lean ====
/- The reference read index by index: queries, keys, logits, the row maximum, the shifted softmax, its product with the beliefs. -/
import proofs.«119842_g5935644803188_cont_9to1c4b_610_16_alg».proof.Proof.Spec
import proofs.«119842_g5935644803188_cont_9to1c4b_610_16_alg».proof.Proof.Gen.ReferenceIdeal.Run
import proofs.«119842_g5935644803188_cont_9to1c4b_610_16_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

abbrev cf2 {n0 n1 : Nat} (x : (⟨2, ![n0, n1]⟩ : Shape).Idx → EReal) : Fin n0 → Fin n1 → EReal := fun a b => x (ix2 a b)

abbrev cf1 {n : Nat} (x : (⟨1, ![n]⟩ : Shape).Idx → EReal) : Fin n → EReal := fun a => x (ix1 a)

section
variable (a0 : FVec Ideal S16x8192 .f32) (a1 : FVec Ideal S8192x128 .f32) (a2 : FVec Ideal S64x128 .f32)
  (a3 : FVec Ideal S64 .f32) (a4 : FVec Ideal S64x128 .f32) (a5 : FVec Ideal S64 .f32)

theorem query_at (i : Fin 8192) (h : Fin 64) :
    Read.val_main_v4 (F := Ideal) a1 a4 a5 (ix2 i h) = Cert.Spec.qry (cf2 a1) (cf2 a4) (cf1 a5) i h := by
  have e1 : ∀ k : Fin 128, Read.lidx_main_v1 (ix2 i h) k = ix2 i k := fun k =>
    funext fun a => match a with | ⟨0, _⟩ => rfl | ⟨1, _⟩ => rfl
  have e2 : ∀ k : Fin 128, Read.idx_main_v0 (Read.ridx_main_v1 (ix2 i h) k) = ix2 h k := fun k =>
    funext fun a => match a with | ⟨0, _⟩ => rfl | ⟨1, _⟩ => rfl
  have e3 : Read.idx_main_v2 (Read.idx_main_v3 (ix2 i h)) = ix1 h :=
    funext fun a => match a with | ⟨0, _⟩ => rfl
  rw [Read.val_main_v4_apply, Read.val_main_v1_apply, Read.val_main_v3_apply, Read.val_main_v2_apply]
  simp only [Read.val_main_v0_apply, e1, e2, e3, Ideal.addf_def]
  rfl

theorem key_at (j : Fin 8192) (h : Fin 64) :
    Read.val_main_v9 (F := Ideal) a1 a2 a3 (ix2 j h) = Cert.Spec.rkey (cf2 a1) (cf2 a2) (cf1 a3) j h := by
  have e1 : ∀ k : Fin 128, Read.lidx_main_v6 (ix2 j h) k = ix2 j k := fun k =>
    funext fun a => match a with | ⟨0, _⟩ => rfl | ⟨1, _⟩ => rfl
  have e2 : ∀ k : Fin 128, Read.idx_main_v5 (Read.ridx_main_v6 (ix2 j h) k) = ix2 h k := fun k =>
    funext fun a => match a with | ⟨0, _⟩ => rfl | ⟨1, _⟩ => rfl
  have e3 : Read.idx_main_v7 (Read.idx_main_v8 (ix2 j h)) = ix1 h :=
    funext fun a => match a with | ⟨0, _⟩ => rfl
  rw [Read.val_main_v9_apply, Read.val_main_v6_apply, Read.val_main_v8_apply, Read.val_main_v7_apply]
  simp only [Read.val_main_v5_apply, e1, e2, e3, Ideal.addf_def]
  rfl

theorem logit_at (i j : Fin 8192) :
    Read.val_main_v11 (F := Ideal) a1 a2 a3 a4 a5 (ix2 i j)
      = Cert.Spec.rlogit (cf2 a1) (cf2 a4) (cf1 a5) (cf2 a2) (cf1 a3) i j := by
  have e1 : ∀ k : Fin 64, Read.lidx_main_v11 (ix2 i j) k = ix2 i k := fun k =>
    funext fun a => match a with | ⟨0, _⟩ => rfl | ⟨1, _⟩ => rfl
  have e2 : ∀ k : Fin 64, Read.idx_main_v10 (Read.ridx_main_v11 (ix2 i j) k) = ix2 j k := fun k =>
    funext fun a => match a with | ⟨0, _⟩ => rfl | ⟨1, _⟩ => rfl
  rw [Read.val_main_v11_apply]
  simp only [Read.val_main_v10_apply, e1, e2, query_at, key_at]
  rfl

theorem ofBits_neg_inf : Ideal.ofBits .f32 0xFF800000#32 = (⊥ : EReal) := by simp [Ideal.ofBits, Ideal.ieee]

theorem lift_row (hr : S8192x8192.Reduces [1] S8192) (i : Fin 8192) (k : Fin (S8192x8192.size 1)) :
    hr.lift (ix1 i) k = ix2 i (⟨k.val, k.isLt⟩ : Fin 8192) := by
  funext c; apply Fin.ext
  match c with
  | ⟨0, _⟩ => rfl
  | ⟨1, _⟩ => rfl

theorem rowmax_at (i : Fin 8192) :
    Read.val_main_v12 (F := Ideal) a1 a2 a3 a4 a5 (ix1 i)
      = (Finset.univ : Finset (Fin 8192)).fold max ⊥
          (fun j => Cert.Spec.rlogit (cf2 a1) (cf2 a4) (cf1 a5) (cf2 a2) (cf1 a3) i j) := by
  have hr : S8192x8192.Reduces [1] S8192 := by decide
  unfold Read.val_main_v12
  rw [Host.reduce_eq_fold_single FloatOps.maximumf _ _ reducesTo_S8192x8192_S8192_d1 hr h_S_]
  have hf : (Read.val_main_v11 (F := Ideal) a1 a2 a3 a4 a5 ∘ hr.lift (ix1 i))
      = fun j : Fin 8192 => Cert.Spec.rlogit (cf2 a1) (cf2 a4) (cf1 a5) (cf2 a2) (cf1 a3) i j :=
    funext fun k => (congrArg (Read.val_main_v11 (F := Ideal) a1 a2 a3 a4 a5) (lift_row hr i k)).trans (logit_at a1 a2 a3 a4 a5 i _)
  rw [hf]
  show (Finset.univ : Finset (Fin 8192)).fold max (Ideal.ofBits .f32 0xFF800000#32) _ = _
  rw [ofBits_neg_inf]

theorem shift_at (i : Fin 8192) :
    Read.val_main_v14 (F := Ideal) a1 a2 a3 a4 a5 (ix1 i)
      = Cert.Spec.rmax (cf2 a1) (cf2 a4) (cf1 a5) (cf2 a2) (cf1 a3) i := by
  rw [Read.val_main_v14_apply, Read.val_main_v13_apply, Read.val_main_cst_0_apply, rowmax_at]
  simp only [Ideal.maximumf_def, Ideal.ofBits_def, ofBits_neg_inf]
  rfl

theorem exp_at (i j : Fin 8192) :
    Read.val_main_v18 (F := Ideal) a1 a2 a3 a4 a5 (ix2 i j)
      = Cert.Spec.rexp (cf2 a1) (cf2 a4) (cf1 a5) (cf2 a2) (cf1 a3)
          (Cert.Spec.rmax (cf2 a1) (cf2 a4) (cf1 a5) (cf2 a2) (cf1 a3)) i j := by
  have e1 : Read.idx_main_v15 (Read.idx_main_v16 (ix2 i j)) = ix1 i :=
    funext fun a => match a with | ⟨0, _⟩ => rfl
  rw [Read.val_main_v18_apply, Read.val_main_v17_apply, Read.val_main_v16_apply, Read.val_main_v15_apply, e1,
    shift_at, logit_at]
  simp only [Ideal.hostUnary_exp_def, Ideal.subf_def]
  rfl

theorem sum_at (i : Fin 8192) :
    Read.val_main_v19 (F := Ideal) a1 a2 a3 a4 a5 (ix1 i)
      = Cert.Spec.rsum (cf2 a1) (cf2 a4) (cf1 a5) (cf2 a2) (cf1 a3)
          (Cert.Spec.rmax (cf2 a1) (cf2 a4) (cf1 a5) (cf2 a2) (cf1 a3)) i := by
  have e1 : ∀ k : Fin 8192, Read.idx_main_v19 (ix1 i) k = ix2 i k := fun k =>
    funext fun a => match a with | ⟨0, _⟩ => rfl | ⟨1, _⟩ => rfl
  rw [Read.val_main_v19_apply, Read.val_main_cst_1_apply]
  simp only [e1, exp_at, Ideal.ofBits_def, Ideal.ofBits_zero_f32, zero_add]
  rfl

theorem soft_at (i j : Fin 8192) :
    Read.val_main_v22 (F := Ideal) a1 a2 a3 a4 a5 (ix2 i j)
      = Cert.Spec.rsoft (cf2 a1) (cf2 a4) (cf1 a5) (cf2 a2) (cf1 a3)
          (Cert.Spec.rmax (cf2 a1) (cf2 a4) (cf1 a5) (cf2 a2) (cf1 a3)) i j := by
  have e1 : Read.idx_main_v20 (Read.idx_main_v21 (ix2 i j)) = ix1 i :=
    funext fun a => match a with | ⟨0, _⟩ => rfl
  rw [Read.val_main_v22_apply, Read.val_main_v21_apply, Read.val_main_v20_apply, e1, sum_at, exp_at]
  simp only [Ideal.hostDivf_def]
  rfl

theorem ref_value :
    Read.val_main_v23 (F := Ideal) a0 a1 a2 a3 a4 a5
      = fun j => Cert.Spec.rout (cf2 a0) (cf2 a1) (cf2 a4) (cf1 a5) (cf2 a2) (cf1 a3)
          (Cert.Spec.rmax (cf2 a1) (cf2 a4) (cf1 a5) (cf2 a2) (cf1 a3)) (j 0) (j 1) := by
  funext j
  obtain ⟨b, q, rfl⟩ : ∃ (b : Fin 16) (q : Fin 8192), j = ix2 b q := ⟨j 0, j 1, eq_ix2 j⟩
  have e1 : ∀ k : Fin 8192, Read.lidx_main_v23 (ix2 b q) k = ix2 b k := fun k =>
    funext fun a => match a with | ⟨0, _⟩ => rfl | ⟨1, _⟩ => rfl
  have e2 : ∀ k : Fin 8192, Read.ridx_main_v23 (ix2 b q) k = ix2 k q := fun k =>
    funext fun a => match a with | ⟨0, _⟩ => rfl | ⟨1, _⟩ => rfl
  rw [Read.val_main_v23_apply]
  simp only [e1, e2, soft_at]
  rfl

end

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = (fun j : S16x8192.Idx => Cert.Spec.rout
            (cf2 (m ((c.tc : Thread nD τ).loc main_arg0) : FVec Ideal S16x8192 .f32))
            (cf2 (m ((c.tc : Thread nD τ).loc main_arg1) : FVec Ideal S8192x128 .f32))
            (cf2 (m ((c.tc : Thread nD τ).loc main_arg4) : FVec Ideal S64x128 .f32))
            (cf1 (m ((c.tc : Thread nD τ).loc main_arg5) : FVec Ideal S64 .f32))
            (cf2 (m ((c.tc : Thread nD τ).loc main_arg2) : FVec Ideal S64x128 .f32))
            (cf1 (m ((c.tc : Thread nD τ).loc main_arg3) : FVec Ideal S64 .f32))
            (Cert.Spec.rmax
              (cf2 (m ((c.tc : Thread nD τ).loc main_arg1) : FVec Ideal S8192x128 .f32))
              (cf2 (m ((c.tc : Thread nD τ).loc main_arg4) : FVec Ideal S64x128 .f32))
              (cf1 (m ((c.tc : Thread nD τ).loc main_arg5) : FVec Ideal S64 .f32))
              (cf2 (m ((c.tc : Thread nD τ).loc main_arg2) : FVec Ideal S64x128 .f32))
              (cf1 (m ((c.tc : Thread nD τ).loc main_arg3) : FVec Ideal S64 .f32)))
            (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Read.val_main_v23_eq (F := Ideal) m c).trans (ref_value _ _ _ _ _ _)), (h c).2⟩)
    (Cert.ReferenceIdeal.Value.run (F := Ideal) m ρ)

end Cert.ReferenceIdeal.RefValue

end
-- ==== Proof.Finite.lean ====
/- A float input whose absolute value is below +inf at every index is a real number at every index. -/
import proofs.«119842_g5935644803188_cont_9to1c4b_610_16_alg».proof.Pre_finite_inputs
import proofs.«119842_g5935644803188_cont_9to1c4b_610_16_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic
open Cert.Pre_finite_inputs (S16x8192 S8192x128 S64x128 S64 S_)

instance : Subsingleton S_.Idx := ⟨fun a b => funext fun d => d.elim0⟩

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) :=
  real_of_abs_lt_inf (a i) (Host.reduce_andi_all _ _ hr hu ValueIdx.ix0 e i)

theorem real_of_fn [hP : Cert.Pre_finite_inputs.Facts]
    (a0 : FVec Ideal S16x8192 .f32) (a1 : FVec Ideal S8192x128 .f32) (a2 : FVec Ideal S64x128 .f32) (a3 : FVec Ideal S64 .f32)
    (a4 : FVec Ideal S64x128 .f32) (a5 : FVec Ideal S64 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 e0, real_of_all _ _ _ a1 e1, real_of_all _ _ _ a2 e2, real_of_all _ _ _ a3 e3,
    real_of_all _ _ _ a4 e4, real_of_all _ _ _ a5 e5⟩

end Cert.Finite

end
-- ==== Proof.lean ====
/- out[b, j] = Σ_i belief[b, i] · softmax_j(Q Kᵀ)[i, j]. One side sums exp(logit) · (belief / row sum) slab by slab, the other
   subtracts the row maximum first; on finite inputs the shift cancels in the quotient and a positive finite row sum moves
   between the two factors. -/
import proofs.«119842_g5935644803188_cont_9to1c4b_610_16_alg».proof.Defs
import proofs.«119842_g5935644803188_cont_9to1c4b_610_16_alg».proof.Proof.Gen.Kernel
import proofs.«119842_g5935644803188_cont_9to1c4b_610_16_alg».proof.Proof.Gen.KernelIdeal
import proofs.«119842_g5935644803188_cont_9to1c4b_610_16_alg».proof.Proof.Gen.ReferenceIdeal
import proofs.«119842_g5935644803188_cont_9to1c4b_610_16_alg».proof.Proof.Gen.Pre_finite_inputs
import proofs.«119842_g5935644803188_cont_9to1c4b_610_16_alg».proof.Proof.Body.Data
import proofs.«119842_g5935644803188_cont_9to1c4b_610_16_alg».proof.Proof.BodyW.Data
import proofs.«119842_g5935644803188_cont_9to1c4b_610_16_alg».proof.Proof.Val.Invariant
import proofs.«119842_g5935644803188_cont_9to1c4b_610_16_alg».proof.Proof.Val.Result
import proofs.«119842_g5935644803188_cont_9to1c4b_610_16_alg».proof.Proof.RefValue
import proofs.«119842_g5935644803188_cont_9to1c4b_610_16_alg».proof.Proof.Finite
import proofs.«119842_g5935644803188_cont_9to1c4b_610_16_alg».proof.Proof.Algebra
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

theorem algebraic : Cert.algebraic_KernelIdeal_ReferenceIdeal := by
  intro m ρ m' ρ' hpre hagree
  refine ⟨fun c => (fun j : Cert.KernelIdeal.S16x8192.Idx => Cert.Spec.kout (Cert.KernelIdeal.Val.abel m c) (Cert.KernelIdeal.Val.aemb m c)
      (Cert.KernelIdeal.Val.awq m c) (Cert.KernelIdeal.Val.abq m c) (Cert.KernelIdeal.Val.awk m c) (Cert.KernelIdeal.Val.abk m c) (j 0) (j 1)), ?_, ?_⟩
  · exact (θ_run Cert.KernelIdeal.defs _ _).mono
      (fun r h c => ⟨(h c).1.trans (Cert.KernelIdeal.Val.out_final m c Cert.KernelIdeal.Val.lt15), (h c).2⟩)
      (Cert.KernelIdeal.Val.run_result m ρ)
  · refine (θ_run Cert.ReferenceIdeal.defs _ _).mono (fun r h c => ⟨(h c).1.trans ?_, (h c).2⟩)
      (Cert.ReferenceIdeal.RefValue.ref_run m' ρ')
    obtain ⟨e0, e1, e2, e3, e4, e5⟩ := hagree c
    obtain ⟨f0, f1, f2, f3, f4, f5⟩ := Cert.Finite.real_of_fn _ _ _ _ _ _ (hpre c)
    rw [e0, e1, e2, e3, e4, e5]
    funext j
    exact (Cert.Spec.kout_eq_rout _ _ _ _ _ _ (fun b i => f0 (ix2 b i)) (fun s d => f1 (ix2 s d)) (fun h d => f4 (ix2 h d))
      (fun h => f5 (ix1 h)) (fun h d => f2 (ix2 h d)) (fun h => f3 (ix1 h)) _
      (fun i => Cert.Spec.rmax_real _ _ _ _ _ (fun s d => f1 (ix2 s d)) (fun h d => f4 (ix2 h d)) (fun h => f5 (ix1 h))
        (fun h d => f2 (ix2 h d)) (fun h => f3 (ix1 h)) i) (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
